-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 2048]⟩ ⟨2, ![8192, 2048]⟩ (Layout.meshBlock [2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![8192, 1024]⟩ ⟨2, ![8192, 2048]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  main_v3
-- ==== Pre_finite_inputs_ReferenceIdeal.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  main_v3
-- ==== Kernel.lean ====
abbrev S4096x2048 : Shape := ⟨2, ![4096, 2048]⟩
abbrev S8192x1024 : Shape := ⟨2, ![8192, 1024]⟩
abbrev S32x64x1024 : Shape := ⟨3, ![32, 64, 1024]⟩
abbrev S2x512x1024 : Shape := ⟨3, ![2, 512, 1024]⟩
abbrev S32 : Shape := ⟨1, ![32]⟩
abbrev S4 : Shape := ⟨1, ![4]⟩
abbrev S_ : Shape := ⟨0, ![]⟩
abbrev S1 : Shape := ⟨1, ![1]⟩
abbrev S1x64x1024 : Shape := ⟨3, ![1, 64, 1024]⟩
abbrev S64x1024 : Shape := ⟨2, ![64, 1024]⟩
abbrev S1x512x1024 : Shape := ⟨3, ![1, 512, 1024]⟩
abbrev S512x1024 : Shape := ⟨2, ![512, 1024]⟩

abbrev nBuf : Space → Nat
  | .hbm => 2
  | .vmem => 3
  | .smem => 0
  | _ => 0

abbrev bufTy : (tb : Table) → Fin (tcTables nBuf tb) → BufTy
  | .hbm, ⟨0, _⟩ => ⟨S4096x2048, .f32⟩
  | .hbm, ⟨1, _⟩ => ⟨S8192x1024, .f32⟩
  | .local _ .vmem, ⟨0, _⟩ => ⟨S32x64x1024, .f32⟩
  | .local _ .vmem, ⟨1, _⟩ => ⟨S32x64x1024, .f32⟩
  | .local _ .vmem, ⟨2, _⟩ => ⟨S2x512x1024, .f32⟩
  | _, _ => ⟨S4096x2048, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 196 → Bool
  | ⟨i, _⟩ => dmaSemScopedAt i

abbrev sig : RefSig :=
  (ofTc nBuf bufTy 1 196 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v9 : BitVec 32 := Scalar.muli v2 c2_i32_5
  let v10 : BitVec 32 := Scalar.addi c0_i32 v9
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6 : BitVec 32 := 1#32
  let v11 : BitVec 32 := Scalar.muli v6 c1_i32_6
  let v12 : BitVec 32 := Scalar.addi v10 v11
  v12.toNat
def k0_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8 : BitVec 32 := 2#32
  let v13 : BitVec 32 := Scalar.muli v7 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_off1 (d0 : Dev nD) (c0_i32_12 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32 : BitVec 32 := 2048#32
  let v17 : BitVec 32 := Scalar.muli v2 c2048_i32
  let v18 : BitVec 32 := Scalar.addi v17 c0_i32_12
  let c1_i32_13 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.subi c1_i32_13 v5
  let c1024_i32 : BitVec 32 := 1024#32
  let v20 : BitVec 32 := Scalar.muli v19 c1024_i32
  ![v18.toNat, v20.toNat]
def k0_dev3 (d0 : Dev nD) : Nat :=
  let c0_i32_216 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_215 : BitVec 32 := 2#32
  let v310 : BitVec 32 := Scalar.muli v2 c2_i32_215
  let v311 : BitVec 32 := Scalar.addi c0_i32_216 v310
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_217 : BitVec 32 := 1#32
  let v312 : BitVec 32 := Scalar.muli v6 c1_i32_217
  let v313 : BitVec 32 := Scalar.addi v311 v312
  v313.toNat
def k0_dev4 (d0 : Dev nD) : Nat :=
  let c0_i32_231 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_230 : BitVec 32 := 2#32
  let v327 : BitVec 32 := Scalar.muli v2 c2_i32_230
  let v328 : BitVec 32 := Scalar.addi c0_i32_231 v327
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_232 : BitVec 32 := 1#32
  let v329 : BitVec 32 := Scalar.muli v6 c1_i32_232
  let v330 : BitVec 32 := Scalar.addi v328 v329
  v330.toNat
def k0_dev5 (d0 : Dev nD) : Nat :=
  let c0_i32_246 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_245 : BitVec 32 := 2#32
  let v344 : BitVec 32 := Scalar.muli v2 c2_i32_245
  let v345 : BitVec 32 := Scalar.addi c0_i32_246 v344
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_247 : BitVec 32 := 1#32
  let v346 : BitVec 32 := Scalar.muli v6 c1_i32_247
  let v347 : BitVec 32 := Scalar.addi v345 v346
  v347.toNat
def k0_dev6 (d0 : Dev nD) : Nat :=
  let c0_i32_261 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_260 : BitVec 32 := 2#32
  let v361 : BitVec 32 := Scalar.muli v2 c2_i32_260
  let v362 : BitVec 32 := Scalar.addi c0_i32_261 v361
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_262 : BitVec 32 := 1#32
  let v363 : BitVec 32 := Scalar.muli v6 c1_i32_262
  let v364 : BitVec 32 := Scalar.addi v362 v363
  v364.toNat
def k0_dev7 (d0 : Dev nD) : Nat :=
  let c0_i32_276 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_275 : BitVec 32 := 2#32
  let v378 : BitVec 32 := Scalar.muli v2 c2_i32_275
  let v379 : BitVec 32 := Scalar.addi c0_i32_276 v378
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_277 : BitVec 32 := 1#32
  let v380 : BitVec 32 := Scalar.muli v6 c1_i32_277
  let v381 : BitVec 32 := Scalar.addi v379 v380
  v381.toNat
def k0_dev8 (d0 : Dev nD) : Nat :=
  let c0_i32_291 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_290 : BitVec 32 := 2#32
  let v395 : BitVec 32 := Scalar.muli v2 c2_i32_290
  let v396 : BitVec 32 := Scalar.addi c0_i32_291 v395
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_292 : BitVec 32 := 1#32
  let v397 : BitVec 32 := Scalar.muli v6 c1_i32_292
  let v398 : BitVec 32 := Scalar.addi v396 v397
  v398.toNat
def k0_dev9 (d0 : Dev nD) : Nat :=
  let c0_i32_306 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_305 : BitVec 32 := 2#32
  let v412 : BitVec 32 := Scalar.muli v2 c2_i32_305
  let v413 : BitVec 32 := Scalar.addi c0_i32_306 v412
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_307 : BitVec 32 := 1#32
  let v414 : BitVec 32 := Scalar.muli v6 c1_i32_307
  let v415 : BitVec 32 := Scalar.addi v413 v414
  v415.toNat
def k0_dev10 (d0 : Dev nD) : Nat :=
  let c0_i32_321 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_320 : BitVec 32 := 2#32
  let v429 : BitVec 32 := Scalar.muli v2 c2_i32_320
  let v430 : BitVec 32 := Scalar.addi c0_i32_321 v429
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_322 : BitVec 32 := 1#32
  let v431 : BitVec 32 := Scalar.muli v6 c1_i32_322
  let v432 : BitVec 32 := Scalar.addi v430 v431
  v432.toNat
def k0_dev11 (d0 : Dev nD) : Nat :=
  let c0_i32_336 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_335 : BitVec 32 := 2#32
  let v446 : BitVec 32 := Scalar.muli v2 c2_i32_335
  let v447 : BitVec 32 := Scalar.addi c0_i32_336 v446
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_337 : BitVec 32 := 1#32
  let v448 : BitVec 32 := Scalar.muli v6 c1_i32_337
  let v449 : BitVec 32 := Scalar.addi v447 v448
  v449.toNat
def k0_dev12 (d0 : Dev nD) : Nat :=
  let c0_i32_351 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_350 : BitVec 32 := 2#32
  let v463 : BitVec 32 := Scalar.muli v2 c2_i32_350
  let v464 : BitVec 32 := Scalar.addi c0_i32_351 v463
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_352 : BitVec 32 := 1#32
  let v465 : BitVec 32 := Scalar.muli v6 c1_i32_352
  let v466 : BitVec 32 := Scalar.addi v464 v465
  v466.toNat
def k0_dev13 (d0 : Dev nD) : Nat :=
  let c0_i32_366 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_365 : BitVec 32 := 2#32
  let v480 : BitVec 32 := Scalar.muli v2 c2_i32_365
  let v481 : BitVec 32 := Scalar.addi c0_i32_366 v480
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_367 : BitVec 32 := 1#32
  let v482 : BitVec 32 := Scalar.muli v6 c1_i32_367
  let v483 : BitVec 32 := Scalar.addi v481 v482
  v483.toNat
def k0_dev14 (d0 : Dev nD) : Nat :=
  let c0_i32_381 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_380 : BitVec 32 := 2#32
  let v497 : BitVec 32 := Scalar.muli v2 c2_i32_380
  let v498 : BitVec 32 := Scalar.addi c0_i32_381 v497
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_382 : BitVec 32 := 1#32
  let v499 : BitVec 32 := Scalar.muli v6 c1_i32_382
  let v500 : BitVec 32 := Scalar.addi v498 v499
  v500.toNat
def k0_dev15 (d0 : Dev nD) : Nat :=
  let c0_i32_396 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_395 : BitVec 32 := 2#32
  let v514 : BitVec 32 := Scalar.muli v2 c2_i32_395
  let v515 : BitVec 32 := Scalar.addi c0_i32_396 v514
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_397 : BitVec 32 := 1#32
  let v516 : BitVec 32 := Scalar.muli v6 c1_i32_397
  let v517 : BitVec 32 := Scalar.addi v515 v516
  v517.toNat
def k0_dev16 (d0 : Dev nD) : Nat :=
  let c0_i32_411 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_410 : BitVec 32 := 2#32
  let v531 : BitVec 32 := Scalar.muli v2 c2_i32_410
  let v532 : BitVec 32 := Scalar.addi c0_i32_411 v531
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_412 : BitVec 32 := 1#32
  let v533 : BitVec 32 := Scalar.muli v6 c1_i32_412
  let v534 : BitVec 32 := Scalar.addi v532 v533
  v534.toNat
def k0_dev17 (d0 : Dev nD) : Nat :=
  let c0_i32_426 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_425 : BitVec 32 := 2#32
  let v548 : BitVec 32 := Scalar.muli v2 c2_i32_425
  let v549 : BitVec 32 := Scalar.addi c0_i32_426 v548
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_427 : BitVec 32 := 1#32
  let v550 : BitVec 32 := Scalar.muli v6 c1_i32_427
  let v551 : BitVec 32 := Scalar.addi v549 v550
  v551.toNat
def k0_dev18 (d0 : Dev nD) : Nat :=
  let c0_i32_441 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_440 : BitVec 32 := 2#32
  let v565 : BitVec 32 := Scalar.muli v2 c2_i32_440
  let v566 : BitVec 32 := Scalar.addi c0_i32_441 v565
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_442 : BitVec 32 := 1#32
  let v567 : BitVec 32 := Scalar.muli v6 c1_i32_442
  let v568 : BitVec 32 := Scalar.addi v566 v567
  v568.toNat
def k0_dev19 (d0 : Dev nD) : Nat :=
  let c0_i32_456 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_455 : BitVec 32 := 2#32
  let v582 : BitVec 32 := Scalar.muli v2 c2_i32_455
  let v583 : BitVec 32 := Scalar.addi c0_i32_456 v582
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_457 : BitVec 32 := 1#32
  let v584 : BitVec 32 := Scalar.muli v6 c1_i32_457
  let v585 : BitVec 32 := Scalar.addi v583 v584
  v585.toNat
def k0_dev20 (d0 : Dev nD) : Nat :=
  let c0_i32_471 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_470 : BitVec 32 := 2#32
  let v599 : BitVec 32 := Scalar.muli v2 c2_i32_470
  let v600 : BitVec 32 := Scalar.addi c0_i32_471 v599
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_472 : BitVec 32 := 1#32
  let v601 : BitVec 32 := Scalar.muli v6 c1_i32_472
  let v602 : BitVec 32 := Scalar.addi v600 v601
  v602.toNat
def k0_dev21 (d0 : Dev nD) : Nat :=
  let c0_i32_486 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_485 : BitVec 32 := 2#32
  let v616 : BitVec 32 := Scalar.muli v2 c2_i32_485
  let v617 : BitVec 32 := Scalar.addi c0_i32_486 v616
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_487 : BitVec 32 := 1#32
  let v618 : BitVec 32 := Scalar.muli v6 c1_i32_487
  let v619 : BitVec 32 := Scalar.addi v617 v618
  v619.toNat
def k0_dev22 (d0 : Dev nD) : Nat :=
  let c0_i32_501 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_500 : BitVec 32 := 2#32
  let v633 : BitVec 32 := Scalar.muli v2 c2_i32_500
  let v634 : BitVec 32 := Scalar.addi c0_i32_501 v633
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_502 : BitVec 32 := 1#32
  let v635 : BitVec 32 := Scalar.muli v6 c1_i32_502
  let v636 : BitVec 32 := Scalar.addi v634 v635
  v636.toNat
def k0_dev23 (d0 : Dev nD) : Nat :=
  let c0_i32_516 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_515 : BitVec 32 := 2#32
  let v650 : BitVec 32 := Scalar.muli v2 c2_i32_515
  let v651 : BitVec 32 := Scalar.addi c0_i32_516 v650
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_517 : BitVec 32 := 1#32
  let v652 : BitVec 32 := Scalar.muli v6 c1_i32_517
  let v653 : BitVec 32 := Scalar.addi v651 v652
  v653.toNat
def k0_dev24 (d0 : Dev nD) : Nat :=
  let c0_i32_531 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_530 : BitVec 32 := 2#32
  let v667 : BitVec 32 := Scalar.muli v2 c2_i32_530
  let v668 : BitVec 32 := Scalar.addi c0_i32_531 v667
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_532 : BitVec 32 := 1#32
  let v669 : BitVec 32 := Scalar.muli v6 c1_i32_532
  let v670 : BitVec 32 := Scalar.addi v668 v669
  v670.toNat
def k0_dev25 (d0 : Dev nD) : Nat :=
  let c0_i32_546 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_545 : BitVec 32 := 2#32
  let v684 : BitVec 32 := Scalar.muli v2 c2_i32_545
  let v685 : BitVec 32 := Scalar.addi c0_i32_546 v684
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_547 : BitVec 32 := 1#32
  let v686 : BitVec 32 := Scalar.muli v6 c1_i32_547
  let v687 : BitVec 32 := Scalar.addi v685 v686
  v687.toNat
def k0_dev26 (d0 : Dev nD) : Nat :=
  let c0_i32_561 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_560 : BitVec 32 := 2#32
  let v701 : BitVec 32 := Scalar.muli v2 c2_i32_560
  let v702 : BitVec 32 := Scalar.addi c0_i32_561 v701
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_562 : BitVec 32 := 1#32
  let v703 : BitVec 32 := Scalar.muli v6 c1_i32_562
  let v704 : BitVec 32 := Scalar.addi v702 v703
  v704.toNat
def k0_dev27 (d0 : Dev nD) : Nat :=
  let c0_i32_576 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_575 : BitVec 32 := 2#32
  let v718 : BitVec 32 := Scalar.muli v2 c2_i32_575
  let v719 : BitVec 32 := Scalar.addi c0_i32_576 v718
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_577 : BitVec 32 := 1#32
  let v720 : BitVec 32 := Scalar.muli v6 c1_i32_577
  let v721 : BitVec 32 := Scalar.addi v719 v720
  v721.toNat
def k0_dev28 (d0 : Dev nD) : Nat :=
  let c0_i32_591 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_590 : BitVec 32 := 2#32
  let v735 : BitVec 32 := Scalar.muli v2 c2_i32_590
  let v736 : BitVec 32 := Scalar.addi c0_i32_591 v735
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_592 : BitVec 32 := 1#32
  let v737 : BitVec 32 := Scalar.muli v6 c1_i32_592
  let v738 : BitVec 32 := Scalar.addi v736 v737
  v738.toNat
def k0_dev29 (d0 : Dev nD) : Nat :=
  let c0_i32_606 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_605 : BitVec 32 := 2#32
  let v752 : BitVec 32 := Scalar.muli v2 c2_i32_605
  let v753 : BitVec 32 := Scalar.addi c0_i32_606 v752
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_607 : BitVec 32 := 1#32
  let v754 : BitVec 32 := Scalar.muli v6 c1_i32_607
  let v755 : BitVec 32 := Scalar.addi v753 v754
  v755.toNat
def k0_dev30 (d0 : Dev nD) : Nat :=
  let c0_i32_621 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_620 : BitVec 32 := 2#32
  let v769 : BitVec 32 := Scalar.muli v2 c2_i32_620
  let v770 : BitVec 32 := Scalar.addi c0_i32_621 v769
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_622 : BitVec 32 := 1#32
  let v771 : BitVec 32 := Scalar.muli v6 c1_i32_622
  let v772 : BitVec 32 := Scalar.addi v770 v771
  v772.toNat
def k0_dev31 (d0 : Dev nD) : Nat :=
  let c0_i32_636 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_635 : BitVec 32 := 2#32
  let v786 : BitVec 32 := Scalar.muli v2 c2_i32_635
  let v787 : BitVec 32 := Scalar.addi c0_i32_636 v786
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_637 : BitVec 32 := 1#32
  let v788 : BitVec 32 := Scalar.muli v6 c1_i32_637
  let v789 : BitVec 32 := Scalar.addi v787 v788
  v789.toNat
def k0_dev32 (d0 : Dev nD) : Nat :=
  let c0_i32_651 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_650 : BitVec 32 := 2#32
  let v803 : BitVec 32 := Scalar.muli v2 c2_i32_650
  let v804 : BitVec 32 := Scalar.addi c0_i32_651 v803
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_652 : BitVec 32 := 1#32
  let v805 : BitVec 32 := Scalar.muli v6 c1_i32_652
  let v806 : BitVec 32 := Scalar.addi v804 v805
  v806.toNat
def k0_dev33 (d0 : Dev nD) : Nat :=
  let c0_i32_666 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_665 : BitVec 32 := 2#32
  let v820 : BitVec 32 := Scalar.muli v2 c2_i32_665
  let v821 : BitVec 32 := Scalar.addi c0_i32_666 v820
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_667 : BitVec 32 := 1#32
  let v822 : BitVec 32 := Scalar.muli v6 c1_i32_667
  let v823 : BitVec 32 := Scalar.addi v821 v822
  v823.toNat
def k0_dev34 (d0 : Dev nD) : Nat :=
  let c0_i32_681 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_680 : BitVec 32 := 2#32
  let v837 : BitVec 32 := Scalar.muli v2 c2_i32_680
  let v838 : BitVec 32 := Scalar.addi c0_i32_681 v837
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_682 : BitVec 32 := 1#32
  let v839 : BitVec 32 := Scalar.muli v6 c1_i32_682
  let v840 : BitVec 32 := Scalar.addi v838 v839
  v840.toNat
def k0_off2 (d0 : Dev nD) (c0_i32_700 : BitVec 32) : Fin 2 → Nat :=
  let c1_i32_698 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v859 : BitVec 32 := Scalar.subi c1_i32_698 v5
  let c4096_i32 : BitVec 32 := 4096#32
  let v860 : BitVec 32 := Scalar.muli v859 c4096_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32_699 : BitVec 32 := 2048#32
  let v861 : BitVec 32 := Scalar.muli v2 c2048_i32_699
  let v862 : BitVec 32 := Scalar.addi v860 v861
  let v863 : BitVec 32 := Scalar.addi v862 c0_i32_700
  let c0_i32_707 : BitVec 32 := 0#32
  ![v863.toNat, 0]
def k0_dev35 (d0 : Dev nD) : Nat :=
  let c0_i32_705 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_704 : BitVec 32 := 2#32
  let v864 : BitVec 32 := Scalar.muli v7 c2_i32_704
  let v865 : BitVec 32 := Scalar.addi c0_i32_705 v864
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_706 : BitVec 32 := 1#32
  let v866 : BitVec 32 := Scalar.muli v5 c1_i32_706
  let v867 : BitVec 32 := Scalar.addi v865 v866
  v867.toNat
def k0_dev36 (d0 : Dev nD) : Nat :=
  let c0_i32_734 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_733 : BitVec 32 := 2#32
  let v895 : BitVec 32 := Scalar.muli v7 c2_i32_733
  let v896 : BitVec 32 := Scalar.addi c0_i32_734 v895
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_735 : BitVec 32 := 1#32
  let v897 : BitVec 32 := Scalar.muli v5 c1_i32_735
  let v898 : BitVec 32 := Scalar.addi v896 v897
  v898.toNat
def k0_dev37 (d0 : Dev nD) : Nat :=
  let c0_i32_763 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_762 : BitVec 32 := 2#32
  let v926 : BitVec 32 := Scalar.muli v7 c2_i32_762
  let v927 : BitVec 32 := Scalar.addi c0_i32_763 v926
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_764 : BitVec 32 := 1#32
  let v928 : BitVec 32 := Scalar.muli v5 c1_i32_764
  let v929 : BitVec 32 := Scalar.addi v927 v928
  v929.toNat
def k0_dev38 (d0 : Dev nD) : Nat :=
  let c0_i32_792 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_791 : BitVec 32 := 2#32
  let v957 : BitVec 32 := Scalar.muli v7 c2_i32_791
  let v958 : BitVec 32 := Scalar.addi c0_i32_792 v957
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_793 : BitVec 32 := 1#32
  let v959 : BitVec 32 := Scalar.muli v5 c1_i32_793
  let v960 : BitVec 32 := Scalar.addi v958 v959
  v960.toNat
def k0_off3 (d0 : Dev nD) : Fin 2 → Nat :=
  let c0_i32_807 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_802 : BitVec 32 := 1024#32
  let v973 : BitVec 32 := Scalar.muli v5 c1024_i32_802
  ![0, v973.toNat]
def k0_off4 (d0 : Dev nD) (c0_i32_814 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32_813 : BitVec 32 := 4096#32
  let v984 : BitVec 32 := Scalar.muli v5 c4096_i32_813
  let v985 : BitVec 32 := Scalar.addi v984 c0_i32_814
  let c0_i32_817 : BitVec 32 := 0#32
  ![v985.toNat, 0]
def k0_dev39 (d0 : Dev nD) : Nat :=
  let c0_i32_839 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_838 : BitVec 32 := 2#32
  let v1006 : BitVec 32 := Scalar.muli v7 c2_i32_838
  let v1007 : BitVec 32 := Scalar.addi c0_i32_839 v1006
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_840 : BitVec 32 := 1#32
  let v1008 : BitVec 32 := Scalar.muli v5 c1_i32_840
  let v1009 : BitVec 32 := Scalar.addi v1007 v1008
  v1009.toNat
def k0_dev40 (d0 : Dev nD) : Nat :=
  let c0_i32_868 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_867 : BitVec 32 := 2#32
  let v1037 : BitVec 32 := Scalar.muli v7 c2_i32_867
  let v1038 : BitVec 32 := Scalar.addi c0_i32_868 v1037
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_869 : BitVec 32 := 1#32
  let v1039 : BitVec 32 := Scalar.muli v5 c1_i32_869
  let v1040 : BitVec 32 := Scalar.addi v1038 v1039
  v1040.toNat
def k0_dev41 (d0 : Dev nD) : Nat :=
  let c0_i32_897 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_896 : BitVec 32 := 2#32
  let v1068 : BitVec 32 := Scalar.muli v7 c2_i32_896
  let v1069 : BitVec 32 := Scalar.addi c0_i32_897 v1068
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_898 : BitVec 32 := 1#32
  let v1070 : BitVec 32 := Scalar.muli v5 c1_i32_898
  let v1071 : BitVec 32 := Scalar.addi v1069 v1070
  v1071.toNat
def k0_dev42 (d0 : Dev nD) : Nat :=
  let c0_i32_926 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_925 : BitVec 32 := 2#32
  let v1099 : BitVec 32 := Scalar.muli v7 c2_i32_925
  let v1100 : BitVec 32 := Scalar.addi c0_i32_926 v1099
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_927 : BitVec 32 := 1#32
  let v1101 : BitVec 32 := Scalar.muli v5 c1_i32_927
  let v1102 : BitVec 32 := Scalar.addi v1100 v1101
  v1102.toNat
def k0_off5 (d0 : Dev nD) : Fin 2 → Nat :=
  let c512_i32_941 : BitVec 32 := 512#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_936 : BitVec 32 := 1024#32
  let v1115 : BitVec 32 := Scalar.muli v5 c1024_i32_936
  ![512, v1115.toNat]
def k0_dev43 (d0 : Dev nD) : Nat :=
  let c0_i32_973 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_972 : BitVec 32 := 2#32
  let v1148 : BitVec 32 := Scalar.muli v7 c2_i32_972
  let v1149 : BitVec 32 := Scalar.addi c0_i32_973 v1148
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_974 : BitVec 32 := 1#32
  let v1150 : BitVec 32 := Scalar.muli v5 c1_i32_974
  let v1151 : BitVec 32 := Scalar.addi v1149 v1150
  v1151.toNat
def k0_dev44 (d0 : Dev nD) : Nat :=
  let c0_i32_1002 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1001 : BitVec 32 := 2#32
  let v1179 : BitVec 32 := Scalar.muli v7 c2_i32_1001
  let v1180 : BitVec 32 := Scalar.addi c0_i32_1002 v1179
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1003 : BitVec 32 := 1#32
  let v1181 : BitVec 32 := Scalar.muli v5 c1_i32_1003
  let v1182 : BitVec 32 := Scalar.addi v1180 v1181
  v1182.toNat
def k0_dev45 (d0 : Dev nD) : Nat :=
  let c0_i32_1031 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1030 : BitVec 32 := 2#32
  let v1210 : BitVec 32 := Scalar.muli v7 c2_i32_1030
  let v1211 : BitVec 32 := Scalar.addi c0_i32_1031 v1210
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1032 : BitVec 32 := 1#32
  let v1212 : BitVec 32 := Scalar.muli v5 c1_i32_1032
  let v1213 : BitVec 32 := Scalar.addi v1211 v1212
  v1213.toNat
def k0_dev46 (d0 : Dev nD) : Nat :=
  let c0_i32_1060 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1059 : BitVec 32 := 2#32
  let v1241 : BitVec 32 := Scalar.muli v7 c2_i32_1059
  let v1242 : BitVec 32 := Scalar.addi c0_i32_1060 v1241
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1061 : BitVec 32 := 1#32
  let v1243 : BitVec 32 := Scalar.muli v5 c1_i32_1061
  let v1244 : BitVec 32 := Scalar.addi v1242 v1243
  v1244.toNat
def k0_off6 (d0 : Dev nD) : Fin 2 → Nat :=
  let c1024_i32_1080 : BitVec 32 := 1024#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_1075 : BitVec 32 := 1024#32
  let v1262 : BitVec 32 := Scalar.muli v5 c1024_i32_1075
  ![1024, v1262.toNat]
def k0_dev47 (d0 : Dev nD) : Nat :=
  let c0_i32_1112 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1111 : BitVec 32 := 2#32
  let v1295 : BitVec 32 := Scalar.muli v7 c2_i32_1111
  let v1296 : BitVec 32 := Scalar.addi c0_i32_1112 v1295
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1113 : BitVec 32 := 1#32
  let v1297 : BitVec 32 := Scalar.muli v5 c1_i32_1113
  let v1298 : BitVec 32 := Scalar.addi v1296 v1297
  v1298.toNat
def k0_dev48 (d0 : Dev nD) : Nat :=
  let c0_i32_1141 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1140 : BitVec 32 := 2#32
  let v1326 : BitVec 32 := Scalar.muli v7 c2_i32_1140
  let v1327 : BitVec 32 := Scalar.addi c0_i32_1141 v1326
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1142 : BitVec 32 := 1#32
  let v1328 : BitVec 32 := Scalar.muli v5 c1_i32_1142
  let v1329 : BitVec 32 := Scalar.addi v1327 v1328
  v1329.toNat
def k0_dev49 (d0 : Dev nD) : Nat :=
  let c0_i32_1170 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1169 : BitVec 32 := 2#32
  let v1357 : BitVec 32 := Scalar.muli v7 c2_i32_1169
  let v1358 : BitVec 32 := Scalar.addi c0_i32_1170 v1357
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1171 : BitVec 32 := 1#32
  let v1359 : BitVec 32 := Scalar.muli v5 c1_i32_1171
  let v1360 : BitVec 32 := Scalar.addi v1358 v1359
  v1360.toNat
def k0_dev50 (d0 : Dev nD) : Nat :=
  let c0_i32_1199 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1198 : BitVec 32 := 2#32
  let v1388 : BitVec 32 := Scalar.muli v7 c2_i32_1198
  let v1389 : BitVec 32 := Scalar.addi c0_i32_1199 v1388
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1200 : BitVec 32 := 1#32
  let v1390 : BitVec 32 := Scalar.muli v5 c1_i32_1200
  let v1391 : BitVec 32 := Scalar.addi v1389 v1390
  v1391.toNat
def k0_off7 (d0 : Dev nD) : Fin 2 → Nat :=
  let c1536_i32_1219 : BitVec 32 := 1536#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_1214 : BitVec 32 := 1024#32
  let v1409 : BitVec 32 := Scalar.muli v5 c1024_i32_1214
  ![1536, v1409.toNat]
def k0_dev51 (d0 : Dev nD) : Nat :=
  let c0_i32_1251 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1250 : BitVec 32 := 2#32
  let v1442 : BitVec 32 := Scalar.muli v7 c2_i32_1250
  let v1443 : BitVec 32 := Scalar.addi c0_i32_1251 v1442
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1252 : BitVec 32 := 1#32
  let v1444 : BitVec 32 := Scalar.muli v5 c1_i32_1252
  let v1445 : BitVec 32 := Scalar.addi v1443 v1444
  v1445.toNat
def k0_dev52 (d0 : Dev nD) : Nat :=
  let c0_i32_1280 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1279 : BitVec 32 := 2#32
  let v1473 : BitVec 32 := Scalar.muli v7 c2_i32_1279
  let v1474 : BitVec 32 := Scalar.addi c0_i32_1280 v1473
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1281 : BitVec 32 := 1#32
  let v1475 : BitVec 32 := Scalar.muli v5 c1_i32_1281
  let v1476 : BitVec 32 := Scalar.addi v1474 v1475
  v1476.toNat
def k0_dev53 (d0 : Dev nD) : Nat :=
  let c0_i32_1309 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1308 : BitVec 32 := 2#32
  let v1504 : BitVec 32 := Scalar.muli v7 c2_i32_1308
  let v1505 : BitVec 32 := Scalar.addi c0_i32_1309 v1504
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1310 : BitVec 32 := 1#32
  let v1506 : BitVec 32 := Scalar.muli v5 c1_i32_1310
  let v1507 : BitVec 32 := Scalar.addi v1505 v1506
  v1507.toNat
def k0_dev54 (d0 : Dev nD) : Nat :=
  let c0_i32_1338 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1337 : BitVec 32 := 2#32
  let v1535 : BitVec 32 := Scalar.muli v7 c2_i32_1337
  let v1536 : BitVec 32 := Scalar.addi c0_i32_1338 v1535
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1339 : BitVec 32 := 1#32
  let v1537 : BitVec 32 := Scalar.muli v5 c1_i32_1339
  let v1538 : BitVec 32 := Scalar.addi v1536 v1537
  v1538.toNat
def k0_off8 (d0 : Dev nD) : Fin 2 → Nat :=
  let c2048_i32_1358 : BitVec 32 := 2048#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_1353 : BitVec 32 := 1024#32
  let v1556 : BitVec 32 := Scalar.muli v5 c1024_i32_1353
  ![2048, v1556.toNat]
def k0_dev55 (d0 : Dev nD) : Nat :=
  let c0_i32_1390 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1389 : BitVec 32 := 2#32
  let v1589 : BitVec 32 := Scalar.muli v7 c2_i32_1389
  let v1590 : BitVec 32 := Scalar.addi c0_i32_1390 v1589
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1391 : BitVec 32 := 1#32
  let v1591 : BitVec 32 := Scalar.muli v5 c1_i32_1391
  let v1592 : BitVec 32 := Scalar.addi v1590 v1591
  v1592.toNat
def k0_dev56 (d0 : Dev nD) : Nat :=
  let c0_i32_1419 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1418 : BitVec 32 := 2#32
  let v1620 : BitVec 32 := Scalar.muli v7 c2_i32_1418
  let v1621 : BitVec 32 := Scalar.addi c0_i32_1419 v1620
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1420 : BitVec 32 := 1#32
  let v1622 : BitVec 32 := Scalar.muli v5 c1_i32_1420
  let v1623 : BitVec 32 := Scalar.addi v1621 v1622
  v1623.toNat
def k0_dev57 (d0 : Dev nD) : Nat :=
  let c0_i32_1448 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1447 : BitVec 32 := 2#32
  let v1651 : BitVec 32 := Scalar.muli v7 c2_i32_1447
  let v1652 : BitVec 32 := Scalar.addi c0_i32_1448 v1651
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1449 : BitVec 32 := 1#32
  let v1653 : BitVec 32 := Scalar.muli v5 c1_i32_1449
  let v1654 : BitVec 32 := Scalar.addi v1652 v1653
  v1654.toNat
def k0_dev58 (d0 : Dev nD) : Nat :=
  let c0_i32_1477 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1476 : BitVec 32 := 2#32
  let v1682 : BitVec 32 := Scalar.muli v7 c2_i32_1476
  let v1683 : BitVec 32 := Scalar.addi c0_i32_1477 v1682
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1478 : BitVec 32 := 1#32
  let v1684 : BitVec 32 := Scalar.muli v5 c1_i32_1478
  let v1685 : BitVec 32 := Scalar.addi v1683 v1684
  v1685.toNat
def k0_off9 (d0 : Dev nD) : Fin 2 → Nat :=
  let c2560_i32 : BitVec 32 := 2560#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_1492 : BitVec 32 := 1024#32
  let v1703 : BitVec 32 := Scalar.muli v5 c1024_i32_1492
  ![2560, v1703.toNat]
def k0_dev59 (d0 : Dev nD) : Nat :=
  let c0_i32_1528 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1527 : BitVec 32 := 2#32
  let v1736 : BitVec 32 := Scalar.muli v7 c2_i32_1527
  let v1737 : BitVec 32 := Scalar.addi c0_i32_1528 v1736
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1529 : BitVec 32 := 1#32
  let v1738 : BitVec 32 := Scalar.muli v5 c1_i32_1529
  let v1739 : BitVec 32 := Scalar.addi v1737 v1738
  v1739.toNat
def k0_dev60 (d0 : Dev nD) : Nat :=
  let c0_i32_1557 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1556 : BitVec 32 := 2#32
  let v1767 : BitVec 32 := Scalar.muli v7 c2_i32_1556
  let v1768 : BitVec 32 := Scalar.addi c0_i32_1557 v1767
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1558 : BitVec 32 := 1#32
  let v1769 : BitVec 32 := Scalar.muli v5 c1_i32_1558
  let v1770 : BitVec 32 := Scalar.addi v1768 v1769
  v1770.toNat
def k0_dev61 (d0 : Dev nD) : Nat :=
  let c0_i32_1586 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1585 : BitVec 32 := 2#32
  let v1798 : BitVec 32 := Scalar.muli v7 c2_i32_1585
  let v1799 : BitVec 32 := Scalar.addi c0_i32_1586 v1798
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1587 : BitVec 32 := 1#32
  let v1800 : BitVec 32 := Scalar.muli v5 c1_i32_1587
  let v1801 : BitVec 32 := Scalar.addi v1799 v1800
  v1801.toNat
def k0_dev62 (d0 : Dev nD) : Nat :=
  let c0_i32_1615 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1614 : BitVec 32 := 2#32
  let v1829 : BitVec 32 := Scalar.muli v7 c2_i32_1614
  let v1830 : BitVec 32 := Scalar.addi c0_i32_1615 v1829
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1616 : BitVec 32 := 1#32
  let v1831 : BitVec 32 := Scalar.muli v5 c1_i32_1616
  let v1832 : BitVec 32 := Scalar.addi v1830 v1831
  v1832.toNat
def k0_off10 (d0 : Dev nD) : Fin 2 → Nat :=
  let c3072_i32 : BitVec 32 := 3072#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_1630 : BitVec 32 := 1024#32
  let v1850 : BitVec 32 := Scalar.muli v5 c1024_i32_1630
  ![3072, v1850.toNat]
def k0_dev63 (d0 : Dev nD) : Nat :=
  let c0_i32_1666 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1665 : BitVec 32 := 2#32
  let v1883 : BitVec 32 := Scalar.muli v7 c2_i32_1665
  let v1884 : BitVec 32 := Scalar.addi c0_i32_1666 v1883
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1667 : BitVec 32 := 1#32
  let v1885 : BitVec 32 := Scalar.muli v5 c1_i32_1667
  let v1886 : BitVec 32 := Scalar.addi v1884 v1885
  v1886.toNat
def k0_dev64 (d0 : Dev nD) : Nat :=
  let c0_i32_1695 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1694 : BitVec 32 := 2#32
  let v1914 : BitVec 32 := Scalar.muli v7 c2_i32_1694
  let v1915 : BitVec 32 := Scalar.addi c0_i32_1695 v1914
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1696 : BitVec 32 := 1#32
  let v1916 : BitVec 32 := Scalar.muli v5 c1_i32_1696
  let v1917 : BitVec 32 := Scalar.addi v1915 v1916
  v1917.toNat
def k0_dev65 (d0 : Dev nD) : Nat :=
  let c0_i32_1724 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1723 : BitVec 32 := 2#32
  let v1945 : BitVec 32 := Scalar.muli v7 c2_i32_1723
  let v1946 : BitVec 32 := Scalar.addi c0_i32_1724 v1945
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1725 : BitVec 32 := 1#32
  let v1947 : BitVec 32 := Scalar.muli v5 c1_i32_1725
  let v1948 : BitVec 32 := Scalar.addi v1946 v1947
  v1948.toNat
def k0_dev66 (d0 : Dev nD) : Nat :=
  let c0_i32_1753 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1752 : BitVec 32 := 2#32
  let v1976 : BitVec 32 := Scalar.muli v7 c2_i32_1752
  let v1977 : BitVec 32 := Scalar.addi c0_i32_1753 v1976
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1754 : BitVec 32 := 1#32
  let v1978 : BitVec 32 := Scalar.muli v5 c1_i32_1754
  let v1979 : BitVec 32 := Scalar.addi v1977 v1978
  v1979.toNat
def k0_off11 (d0 : Dev nD) : Fin 2 → Nat :=
  let c3584_i32 : BitVec 32 := 3584#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_1768 : BitVec 32 := 1024#32
  let v1997 : BitVec 32 := Scalar.muli v5 c1024_i32_1768
  ![3584, v1997.toNat]

class Facts₀ : Prop where
  hamt_1 : (1#32 : BitVec 32).msb = false
  hamt_2 : (2#32 : BitVec 32).msb = false
  inb_S32_S1_0 : ∀ a, (![0] : Fin 1 → Nat) a + S1.size a ≤ S32.size a
  squeezes_S1_S_ : S1.Squeezes S_
  inb_S32x64x1024_S1x64x1024_0_0_0 : ∀ a, (![0, 0, 0] : Fin 3 → Nat) a + S1x64x1024.size a ≤ S32x64x1024.size a
  squeezes_S1x64x1024_S64x1024 : S1x64x1024.Squeezes S64x1024
  inb_S32_S1_1 : ∀ a, (![1] : Fin 1 → Nat) a + S1.size a ≤ S32.size a
  inb_S32x64x1024_S1x64x1024_1_0_0 : ∀ a, (![1, 0, 0] : Fin 3 → Nat) a + S1x64x1024.size a ≤ S32x64x1024.size a
  inb_S32_S1_2 : ∀ a, (![2] : Fin 1 → Nat) a + S1.size a ≤ S32.size a
  inb_S32x64x1024_S1x64x1024_2_0_0 : ∀ a, (![2, 0, 0] : Fin 3 → Nat) a + S1x64x1024.size a ≤ S32x64x1024.size a
  inb_S32_S1_3 : ∀ a, (![3] : Fin 1 → Nat) a + S1.size a ≤ S32.size a
  inb_S32x64x1024_S1x64x1024_3_0_0 : ∀ a, (![3, 0, 0] : Fin 3 → Nat) a + S1x64x1024.size a ≤ S32x64x1024.size a
  inb_S32_S1_4 : ∀ a, (![4] : Fin 1 → Nat) a + S1.size a ≤ S32.size a
  inb_S32x64x1024_S1x64x1024_4_0_0 : ∀ a, (![4, 0, 0] : Fin 3 → Nat) a + S1x64x1024.size a ≤ S32x64x1024.size a
  inb_S32_S1_5 : ∀ a, (![5] : Fin 1 → Nat) a + S1.size a ≤ S32.size a
  inb_S32x64x1024_S1x64x1024_5_0_0 : ∀ a, (![5, 0, 0] : Fin 3 → Nat) a + S1x64x1024.size a ≤ S32x64x1024.size a
  inb_S32_S1_6 : ∀ a, (![6] : Fin 1 → Nat) a + S1.size a ≤ S32.size a
  inb_S32x64x1024_S1x64x1024_6_0_0 : ∀ a, (![6, 0, 0] : Fin 3 → Nat) a + S1x64x1024.size a ≤ S32x64x1024.size a
  inb_S32_S1_7 : ∀ a, (![7] : Fin 1 → Nat) a + S1.size a ≤ S32.size a
  inb_S32x64x1024_S1x64x1024_7_0_0 : ∀ a, (![7, 0, 0] : Fin 3 → Nat) a + S1x64x1024.size a ≤ S32x64x1024.size a
  inb_S32_S1_8 : ∀ a, (![8] : Fin 1 → Nat) a + S1.size a ≤ S32.size a
  inb_S32x64x1024_S1x64x1024_8_0_0 : ∀ a, (![8, 0, 0] : Fin 3 → Nat) a + S1x64x1024.size a ≤ S32x64x1024.size a
  inb_S32_S1_9 : ∀ a, (![9] : Fin 1 → Nat) a + S1.size a ≤ S32.size a
  inb_S32x64x1024_S1x64x1024_9_0_0 : ∀ a, (![9, 0, 0] : Fin 3 → Nat) a + S1x64x1024.size a ≤ S32x64x1024.size a
  inb_S32_S1_10 : ∀ a, (![10] : Fin 1 → Nat) a + S1.size a ≤ S32.size a
  inb_S32x64x1024_S1x64x1024_10_0_0 : ∀ a, (![10, 0, 0] : Fin 3 → Nat) a + S1x64x1024.size a ≤ S32x64x1024.size a
  inb_S32_S1_11 : ∀ a, (![11] : Fin 1 → Nat) a + S1.size a ≤ S32.size a
  inb_S32x64x1024_S1x64x1024_11_0_0 : ∀ a, (![11, 0, 0] : Fin 3 → Nat) a + S1x64x1024.size a ≤ S32x64x1024.size a
  inb_S32_S1_12 : ∀ a, (![12] : Fin 1 → Nat) a + S1.size a ≤ S32.size a
  inb_S32x64x1024_S1x64x1024_12_0_0 : ∀ a, (![12, 0, 0] : Fin 3 → Nat) a + S1x64x1024.size a ≤ S32x64x1024.size a
  inb_S32_S1_13 : ∀ a, (![13] : Fin 1 → Nat) a + S1.size a ≤ S32.size a
  inb_S32x64x1024_S1x64x1024_13_0_0 : ∀ a, (![13, 0, 0] : Fin 3 → Nat) a + S1x64x1024.size a ≤ S32x64x1024.size a
  inb_S32_S1_14 : ∀ a, (![14] : Fin 1 → Nat) a + S1.size a ≤ S32.size a
  inb_S32x64x1024_S1x64x1024_14_0_0 : ∀ a, (![14, 0, 0] : Fin 3 → Nat) a + S1x64x1024.size a ≤ S32x64x1024.size a
  inb_S32_S1_15 : ∀ a, (![15] : Fin 1 → Nat) a + S1.size a ≤ S32.size a
  inb_S32x64x1024_S1x64x1024_15_0_0 : ∀ a, (![15, 0, 0] : Fin 3 → Nat) a + S1x64x1024.size a ≤ S32x64x1024.size a
  inb_S32_S1_16 : ∀ a, (![16] : Fin 1 → Nat) a + S1.size a ≤ S32.size a
  inb_S32x64x1024_S1x64x1024_16_0_0 : ∀ a, (![16, 0, 0] : Fin 3 → Nat) a + S1x64x1024.size a ≤ S32x64x1024.size a
  inb_S32_S1_17 : ∀ a, (![17] : Fin 1 → Nat) a + S1.size a ≤ S32.size a
  inb_S32x64x1024_S1x64x1024_17_0_0 : ∀ a, (![17, 0, 0] : Fin 3 → Nat) a + S1x64x1024.size a ≤ S32x64x1024.size a
  inb_S32_S1_18 : ∀ a, (![18] : Fin 1 → Nat) a + S1.size a ≤ S32.size a
  inb_S32x64x1024_S1x64x1024_18_0_0 : ∀ a, (![18, 0, 0] : Fin 3 → Nat) a + S1x64x1024.size a ≤ S32x64x1024.size a
  inb_S32_S1_19 : ∀ a, (![19] : Fin 1 → Nat) a + S1.size a ≤ S32.size a
  inb_S32x64x1024_S1x64x1024_19_0_0 : ∀ a, (![19, 0, 0] : Fin 3 → Nat) a + S1x64x1024.size a ≤ S32x64x1024.size a
  inb_S32_S1_20 : ∀ a, (![20] : Fin 1 → Nat) a + S1.size a ≤ S32.size a
  inb_S32x64x1024_S1x64x1024_20_0_0 : ∀ a, (![20, 0, 0] : Fin 3 → Nat) a + S1x64x1024.size a ≤ S32x64x1024.size a
  inb_S32_S1_21 : ∀ a, (![21] : Fin 1 → Nat) a + S1.size a ≤ S32.size a
  inb_S32x64x1024_S1x64x1024_21_0_0 : ∀ a, (![21, 0, 0] : Fin 3 → Nat) a + S1x64x1024.size a ≤ S32x64x1024.size a
  inb_S32_S1_22 : ∀ a, (![22] : Fin 1 → Nat) a + S1.size a ≤ S32.size a
  inb_S32x64x1024_S1x64x1024_22_0_0 : ∀ a, (![22, 0, 0] : Fin 3 → Nat) a + S1x64x1024.size a ≤ S32x64x1024.size a
  inb_S32_S1_23 : ∀ a, (![23] : Fin 1 → Nat) a + S1.size a ≤ S32.size a
  inb_S32x64x1024_S1x64x1024_23_0_0 : ∀ a, (![23, 0, 0] : Fin 3 → Nat) a + S1x64x1024.size a ≤ S32x64x1024.size a
  inb_S32_S1_24 : ∀ a, (![24] : Fin 1 → Nat) a + S1.size a ≤ S32.size a
  inb_S32x64x1024_S1x64x1024_24_0_0 : ∀ a, (![24, 0, 0] : Fin 3 → Nat) a + S1x64x1024.size a ≤ S32x64x1024.size a
  inb_S32_S1_25 : ∀ a, (![25] : Fin 1 → Nat) a + S1.size a ≤ S32.size a
  inb_S32x64x1024_S1x64x1024_25_0_0 : ∀ a, (![25, 0, 0] : Fin 3 → Nat) a + S1x64x1024.size a ≤ S32x64x1024.size a
  inb_S32_S1_26 : ∀ a, (![26] : Fin 1 → Nat) a + S1.size a ≤ S32.size a
  inb_S32x64x1024_S1x64x1024_26_0_0 : ∀ a, (![26, 0, 0] : Fin 3 → Nat) a + S1x64x1024.size a ≤ S32x64x1024.size a
  inb_S32_S1_27 : ∀ a, (![27] : Fin 1 → Nat) a + S1.size a ≤ S32.size a
  inb_S32x64x1024_S1x64x1024_27_0_0 : ∀ a, (![27, 0, 0] : Fin 3 → Nat) a + S1x64x1024.size a ≤ S32x64x1024.size a
  inb_S32_S1_28 : ∀ a, (![28] : Fin 1 → Nat) a + S1.size a ≤ S32.size a
  inb_S32x64x1024_S1x64x1024_28_0_0 : ∀ a, (![28, 0, 0] : Fin 3 → Nat) a + S1x64x1024.size a ≤ S32x64x1024.size a
  inb_S32_S1_29 : ∀ a, (![29] : Fin 1 → Nat) a + S1.size a ≤ S32.size a
  inb_S32x64x1024_S1x64x1024_29_0_0 : ∀ a, (![29, 0, 0] : Fin 3 → Nat) a + S1x64x1024.size a ≤ S32x64x1024.size a
  inb_S32_S1_30 : ∀ a, (![30] : Fin 1 → Nat) a + S1.size a ≤ S32.size a
  inb_S32x64x1024_S1x64x1024_30_0_0 : ∀ a, (![30, 0, 0] : Fin 3 → Nat) a + S1x64x1024.size a ≤ S32x64x1024.size a
  inb_S32_S1_31 : ∀ a, (![31] : Fin 1 → Nat) a + S1.size a ≤ S32.size a
  inb_S32x64x1024_S1x64x1024_31_0_0 : ∀ a, (![31, 0, 0] : Fin 3 → Nat) a + S1x64x1024.size a ≤ S32x64x1024.size a
  inb_S4_S1_0 : ∀ a, (![0] : Fin 1 → Nat) a + S1.size a ≤ S4.size a
  inb_S2x512x1024_S1x512x1024_0_0_0 : ∀ a, (![0, 0, 0] : Fin 3 → Nat) a + S1x512x1024.size a ≤ S2x512x1024.size a
  squeezes_S1x512x1024_S512x1024 : S1x512x1024.Squeezes S512x1024
  inb_S4_S1_2 : ∀ a, (![2] : Fin 1 → Nat) a + S1.size a ≤ S4.size a
  inb_S4_S1_1 : ∀ a, (![1] : Fin 1 → Nat) a + S1.size a ≤ S4.size a
  inb_S2x512x1024_S1x512x1024_1_0_0 : ∀ a, (![1, 0, 0] : Fin 3 → Nat) a + S1x512x1024.size a ≤ S2x512x1024.size a
  inb_S4_S1_3 : ∀ a, (![3] : Fin 1 → Nat) a + S1.size a ≤ S4.size a
  hcc0_scratch3 : 0 + S32.numel ≤ 196
  hcc0_scratch4 : 32 + S32.numel ≤ 196
  hcc0_scratch5 : 64 + S32.numel ≤ 196
  hcc0_scratch6 : 96 + S32.numel ≤ 196
  hcc0_scratch7 : 128 + S32.numel ≤ 196
  hcc0_scratch8 : 160 + S32.numel ≤ 196
  hcc0_scratch9 : 192 + S4.numel ≤ 196
  k0_dev1_lt : ∀ d0 : Dev nD, (k0_dev1 d0) < nD
  k0_dev2_lt : ∀ d0 : Dev nD, (k0_dev2 d0) < nD
  k0_off1_inb : ∀ d0 : Dev nD, ∀ (r : Fin 32), ∀ a, (k0_off1 d0 (BitVec.ofNat 32 (64 * r.val))) a + S64x1024.size a ≤ S4096x2048.size a
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_off2_inb : ∀ d0 : Dev nD, ∀ (r : Fin 32), ∀ a, (k0_off2 d0 (BitVec.ofNat 32 (64 * r.val))) a + S64x1024.size a ≤ S8192x1024.size a
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_off3_inb : ∀ d0 : Dev nD, ∀ a, (k0_off3 d0) a + S512x1024.size a ≤ S4096x2048.size a
  k0_off4_inb : ∀ d0 : Dev nD, ∀ (r : Fin 8), ∀ a, (k0_off4 d0 (BitVec.ofNat 32 (512 * r.val))) a + S512x1024.size a ≤ S8192x1024.size a
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_off5_inb : ∀ d0 : Dev nD, ∀ a, (k0_off5 d0) a + S512x1024.size a ≤ S4096x2048.size a
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_off6_inb : ∀ d0 : Dev nD, ∀ a, (k0_off6 d0) a + S512x1024.size a ≤ S4096x2048.size a
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_off7_inb : ∀ d0 : Dev nD, ∀ a, (k0_off7 d0) a + S512x1024.size a ≤ S4096x2048.size a
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_off8_inb : ∀ d0 : Dev nD, ∀ a, (k0_off8 d0) a + S512x1024.size a ≤ S4096x2048.size a
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_off9_inb : ∀ d0 : Dev nD, ∀ a, (k0_off9 d0) a + S512x1024.size a ≤ S4096x2048.size a
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_off10_inb : ∀ d0 : Dev nD, ∀ a, (k0_off10 d0) a + S512x1024.size a ≤ S4096x2048.size a
  k0_dev63_lt : ∀ d0 : Dev nD, (k0_dev63 d0) < nD
  k0_dev64_lt : ∀ d0 : Dev nD, (k0_dev64 d0) < nD
  k0_dev65_lt : ∀ d0 : Dev nD, (k0_dev65 d0) < nD
  k0_dev66_lt : ∀ d0 : Dev nD, (k0_dev66 d0) < nD
  k0_off11_inb : ∀ d0 : Dev nD, ∀ a, (k0_off11 d0) a + S512x1024.size a ≤ S4096x2048.size a

variable [Facts₀]

abbrev cc0_scratch3 : DmaSems sig S32 := SemArray.consecutive 0 S32 hcc0_scratch3
abbrev cc0_scratch4 : DmaSems sig S32 := SemArray.consecutive 32 S32 hcc0_scratch4
abbrev cc0_scratch5 : DmaSems sig S32 := SemArray.consecutive 64 S32 hcc0_scratch5
abbrev cc0_scratch6 : DmaSems sig S32 := SemArray.consecutive 96 S32 hcc0_scratch6
abbrev cc0_scratch7 : DmaSems sig S32 := SemArray.consecutive 128 S32 hcc0_scratch7
abbrev cc0_scratch8 : DmaSems sig S32 := SemArray.consecutive 160 S32 hcc0_scratch8
abbrev cc0_scratch9 : DmaSems sig S4 := SemArray.consecutive 192 S4 hcc0_scratch9

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S8192x2048 : Shape := ⟨2, ![8192, 2048]⟩

abbrev nBuf : Space → Nat
  | .hbm => 1
  | .vmem => 0
  | .smem => 0
  | _ => 0

abbrev bufTy : (tb : Table) → Fin (tcTables nBuf tb) → BufTy
  | .hbm, ⟨0, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.Cells.lean ====
import proofs.«900033_g7700000000000034_dist_a2a_v7x_xy2x2_y_m4096_n1024_f32_1_alg».proof.Proof.Gen.KernelIdeal
import proofs.«900033_g7700000000000034_dist_a2a_v7x_xy2x2_y_m4096_n1024_f32_1_alg».proof.Proof.Gen.KernelIdeal.Skeleton
import proofs.«900033_g7700000000000034_dist_a2a_v7x_xy2x2_y_m4096_n1024_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

abbrev PG (F : FTy → Type) : Type 1 := Prog (TpuEff nD τ sig (Elt F) Λ₀ .tc) PUnit.{1}

-- device c sits at mesh position (c / 2, c % 2): its neighbour along y, and along x
def ynb (c : Dev nD) : Dev nD := ⟨(2 * (c.val / 2) + 1) - (c.val % 2), by have h : c.val < 4 := c.isLt; show _ < 4; omega⟩
def xnb (c : Dev nD) : Dev nD := ⟨((c.val % 2) + 2) - 2 * (c.val / 2), by have h : c.val < 4 := c.isLt; show _ < 4; omega⟩

theorem ynb_ynb (c : Dev nD) : ynb (ynb c) = c := by revert c; decide
theorem xnb_xnb (c : Dev nD) : xnb (xnb c) = c := by revert c; decide

def yEquiv : Dev nD ≃ Dev nD := ⟨ynb, ynb, ynb_ynb, ynb_ynb⟩
def xEquiv : Dev nD ≃ Dev nD := ⟨xnb, xnb, xnb_xnb, xnb_xnb⟩

abbrev xM : Memref sig .tc .hbm S4096x2048 .f32 := Memref.whole main_arg0
abbrev oM : Memref sig .tc .hbm S8192x1024 .f32 := Memref.whole main_v1
abbrev sM : Memref sig .tc .vmem S32x64x1024 .f32 := Memref.whole cc0_scratch0
abbrev rM : Memref sig .tc .vmem S32x64x1024 .f32 := Memref.whole cc0_scratch1
abbrev vM : Memref sig .tc .vmem S2x512x1024 .f32 := Memref.whole cc0_scratch2

theorem inb32 (k : Fin 32) : ∀ a, (![k.val] : Fin 1 → Nat) a + S1.size a ≤ S32.size a := by
  intro a; fin_cases a; simp [S1, S32]; omega
theorem inb4 (j : Fin 4) : ∀ a, (![j.val] : Fin 1 → Nat) a + S1.size a ≤ S4.size a := by
  intro a; fin_cases a; simp [S1, S4]; omega
theorem inbSlot (k : Fin 32) : ∀ a, (![k.val, 0, 0] : Fin 3 → Nat) a + S1x64x1024.size a ≤ S32x64x1024.size a := by
  intro a; fin_cases a <;> simp [S1x64x1024, S32x64x1024] <;> omega

abbrev semAt (A : DmaSems sig S32) (k : Fin 32) : DmaSems sig S_ :=
  (A.slice (Rect.unit (s := S32) ![k.val] S1.size (inb32 k))).squeeze S_ squeezes_S1_S_
abbrev sem4At (A : DmaSems sig S4) (j : Fin 4) : DmaSems sig S_ :=
  (A.slice (Rect.unit (s := S4) ![j.val] S1.size (inb4 j))).squeeze S_ squeezes_S1_S_
abbrev slotAt (A : Memref sig .tc .vmem S32x64x1024 .f32) (k : Fin 32) : Memref sig .tc .vmem S64x1024 .f32 :=
  (A.slice (Rect.unit (s := S32x64x1024) ![k.val, 0, 0] S1x64x1024.size (inbSlot k)) (fun _ => rfl)).squeeze S64x1024 squeezes_S1x64x1024_S64x1024

abbrev xG (c : Dev nD) (k : Fin 32) : Memref sig .tc .hbm S64x1024 .f32 :=
  xM.slice (Rect.unit (s := S4096x2048) (k0_off1 c (BitVec.ofNat 32 (64 * k.val))) S64x1024.size (k0_off1_inb c k)) (fun _ => rfl)
abbrev oP (c : Dev nD) (k : Fin 32) : Memref sig .tc .hbm S64x1024 .f32 :=
  oM.slice (Rect.unit (s := S8192x1024) (k0_off2 c (BitVec.ofNat 32 (64 * k.val))) S64x1024.size (k0_off2_inb c k)) (fun _ => rfl)

theorem inbV (s : Fin 2) : ∀ a, (![s.val, 0, 0] : Fin 3 → Nat) a + S1x512x1024.size a ≤ S2x512x1024.size a := by
  intro a; fin_cases a <;> simp [S1x512x1024, S2x512x1024] <;> omega
abbrev vSlot (s : Fin 2) : Memref sig .tc .vmem S512x1024 .f32 :=
  (vM.slice (Rect.unit (s := S2x512x1024) ![s.val, 0, 0] S1x512x1024.size (inbV s)) (fun _ => rfl)).squeeze S512x1024 squeezes_S1x512x1024_S512x1024

def xLoff (c : Dev nD) : Fin 8 → (Fin 2 → Nat)
  | 0 => k0_off3 c | 1 => k0_off5 c | 2 => k0_off6 c | 3 => k0_off7 c
  | 4 => k0_off8 c | 5 => k0_off9 c | 6 => k0_off10 c | 7 => k0_off11 c
theorem xLoff_inb (c : Dev nD) (j : Fin 8) : ∀ a, (xLoff c j) a + S512x1024.size a ≤ S4096x2048.size a := by
  fin_cases j
  · exact k0_off3_inb c
  · exact k0_off5_inb c
  · exact k0_off6_inb c
  · exact k0_off7_inb c
  · exact k0_off8_inb c
  · exact k0_off9_inb c
  · exact k0_off10_inb c
  · exact k0_off11_inb c
theorem xLoff_eq (c : Dev nD) (j : Fin 8) : xLoff c j = ![512 * j.val, 1024 * (c.val % 2)] := by
  fin_cases j
  · exact (k0_off3_eq c).trans (by simp)
  · exact (k0_off5_eq c).trans (by simp)
  · exact (k0_off6_eq c).trans (by simp)
  · exact (k0_off7_eq c).trans (by simp)
  · exact (k0_off8_eq c).trans (by simp)
  · exact (k0_off9_eq c).trans (by simp)
  · exact (k0_off10_eq c).trans (by simp)
  · exact (k0_off11_eq c).trans (by simp)

abbrev xL (c : Dev nD) (j : Fin 8) : Memref sig .tc .hbm S512x1024 .f32 :=
  xM.slice (Rect.unit (s := S4096x2048) (xLoff c j) S512x1024.size (xLoff_inb c j)) (fun _ => rfl)
abbrev oL (c : Dev nD) (j : Fin 8) : Memref sig .tc .hbm S512x1024 .f32 :=
  oM.slice (Rect.unit (s := S8192x1024) (k0_off4 c (BitVec.ofNat 32 (512 * j.val))) S512x1024.size (k0_off4_inb c j)) (fun _ => rfl)

abbrev barS : Sem sig := (SemArray.scalar (sig.barrier 0 rfl) : Sems sig S_).sem
abbrev gS : DmaSems sig S32 := cc0_scratch3
abbrev aS : DmaSems sig S32 := cc0_scratch4
abbrev bS : DmaSems sig S32 := cc0_scratch5
abbrev dS : DmaSems sig S32 := cc0_scratch6
abbrev eS : DmaSems sig S32 := cc0_scratch7
abbrev tS : DmaSems sig S32 := cc0_scratch8
abbrev lS : DmaSems sig S4 := cc0_scratch9

abbrev cellB (c : Dev nD) : GSem nD τ sig := ((c : Thread nD τ), .reg barS)
abbrev cell (A : DmaSems sig S32) (c : Dev nD) (k : Fin 32) : GSem nD τ sig := ((c : Thread nD τ), .dma (semAt A k).sem)
abbrev cellL (c : Dev nD) (j : Fin 4) : GSem nD τ sig := ((c : Thread nD τ), .dma (sem4At lS j).sem)

abbrev N : ℕ := (slotAt sM 0).view.dmaCredit
abbrev NL : ℕ := (vSlot 0).view.dmaCredit

abbrev Gv (c : Dev nD) (k : Fin 32) (X : Buf (Elt F) ((c : Thread nD τ).loc main_arg0)) := (xG c k).view.read (Elt F) X
abbrev Lv (c : Dev nD) (j : Fin 8) (X : Buf (Elt F) ((c : Thread nD τ).loc main_arg0)) := (xL c j).view.read (Elt F) X

-- what a device's result must read, rectangle by rectangle, given every device's block of the array
def ResultOk (xs : (c : Dev nD) → Buf (Elt F) ((c : Thread nD τ).loc main_arg0)) (c : Dev nD)
    (Fo : Buf (Elt F) ((c : Thread nD τ).loc main_v1)) : Prop :=
  (∀ k : Fin 32, (oP c k).view.read (Elt F) Fo = Gv (ynb c) k (xs (ynb c)))
  ∧ (∀ k : Fin 32, (oP (xnb c) k).view.read (Elt F) Fo = Gv (ynb (xnb c)) k (xs (ynb (xnb c))))
  ∧ (∀ j : Fin 8, (oL c j).view.read (Elt F) Fo = Lv c j (xs c))

end Cert.KernelIdeal.A2A

end
-- ==== Proof.Prog.lean ====
import proofs.«900033_g7700000000000034_dist_a2a_v7x_xy2x2_y_m4096_n1024_f32_1_alg».proof.Proof.Cells
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem dev1_eq (c : Dev nD) : (⟨k0_dev1 c, k0_dev1_lt c⟩ : Dev nD) = ynb c := Fin.ext (k0_dev1_eq c)
theorem dev2_eq (c : Dev nD) : (⟨k0_dev2 c, k0_dev2_lt c⟩ : Dev nD) = xnb c := Fin.ext (k0_dev2_eq c)

abbrev opGather (c : Dev nD) (k : Fin 32) (ct : PG F) : PG F :=
  .op (.enqueueDma (xG c k) (.here (slotAt sM k)) (.dma (semAt gS k).sem) (View.wordExact_bits rfl) ((View.wordExact_bits rfl).reshape _ _) ⟨Or.inl rfl, trivial⟩) fun _ => ct
abbrev opWaitG (c : Dev nD) (k : Fin 32) (ct : PG F) : PG F :=
  .op (.waitDma2 (semAt gS k).sem (xG c k) (slotAt sM k) (View.wordExact_bits rfl) ((View.wordExact_bits rfl).reshape _ _)) fun _ => ct
abbrev opSend1G (y : Dev nD) (k : Fin 32) (ct : PG F) : PG F :=
  .op (.enqueueDma (slotAt sM k) (.remote (Dev.tc y) (slotAt rM k) (.dma (semAt aS k).sem)) (.dma (semAt bS k).sem) ((View.wordExact_bits rfl).reshape _ _) ((View.wordExact_bits rfl).reshape _ _) ⟨⟨rfl, Or.inl rfl⟩, trivial⟩) fun _ => ct
abbrev opSend1 (c : Dev nD) (k : Fin 32) (ct : PG F) : PG F := opSend1G (ynb c) k ct
abbrev opWaitB (c : Dev nD) (k : Fin 32) (ct : PG F) : PG F :=
  .op (.waitDma2 (semAt bS k).sem (slotAt sM k) (slotAt rM k) ((View.wordExact_bits rfl).reshape _ _) ((View.wordExact_bits rfl).reshape _ _)) fun _ => ct
abbrev opSend2G (c x : Dev nD) (k : Fin 32) (ct : PG F) : PG F :=
  .op (.enqueueDma (slotAt rM k) (.remote (Dev.tc x) (oP c k) (.dma (semAt dS k).sem)) (.dma (semAt eS k).sem) ((View.wordExact_bits rfl).reshape _ _) (View.wordExact_bits rfl) ⟨⟨rfl, Or.inl rfl⟩, trivial⟩) fun _ => ct
abbrev opStore (c : Dev nD) (k : Fin 32) (ct : PG F) : PG F :=
  .op (.enqueueDma (slotAt rM k) (.here (oP c k)) (.dma (semAt tS k).sem) ((View.wordExact_bits rfl).reshape _ _) (View.wordExact_bits rfl) ⟨Or.inl rfl, trivial⟩) fun _ => ct
abbrev opWaitA (c : Dev nD) (k : Fin 32) (ct : PG F) : PG F :=
  .op (.waitDma2 (semAt aS k).sem (slotAt rM k) (slotAt sM k) ((View.wordExact_bits rfl).reshape _ _) ((View.wordExact_bits rfl).reshape _ _)) fun _ => ct
abbrev opWaitE (c : Dev nD) (k : Fin 32) (ct : PG F) : PG F :=
  .op (.waitDma2 (semAt eS k).sem (slotAt rM k) (oP c k) ((View.wordExact_bits rfl).reshape _ _) (View.wordExact_bits rfl)) fun _ => ct
abbrev opWaitD (c : Dev nD) (k : Fin 32) (ct : PG F) : PG F :=
  .op (.waitDma2 (semAt dS k).sem (oP c k) (slotAt rM k) (View.wordExact_bits rfl) ((View.wordExact_bits rfl).reshape _ _)) fun _ => ct
abbrev opWaitT (c : Dev nD) (k : Fin 32) (ct : PG F) : PG F :=
  .op (.waitDma2 (semAt tS k).sem (slotAt rM k) (oP c k) ((View.wordExact_bits rfl).reshape _ _) (View.wordExact_bits rfl)) fun _ => ct

abbrev cs (j : Fin 8) : Fin 2 := ⟨j.val % 2, Nat.mod_lt _ (by decide)⟩
abbrev lsL (j : Fin 8) : Fin 4 := ⟨j.val % 2, by omega⟩
abbrev lsS (j : Fin 8) : Fin 4 := ⟨2 + j.val % 2, by omega⟩
abbrev opLoad (c : Dev nD) (j : Fin 8) (ct : PG F) : PG F :=
  .op (.enqueueDma (xL c j) (.here (vSlot (cs j))) (.dma (sem4At lS (lsL j)).sem) (View.wordExact_bits rfl) ((View.wordExact_bits rfl).reshape _ _) ⟨Or.inl rfl, trivial⟩) fun _ => ct
abbrev opWaitLoad (c : Dev nD) (j : Fin 8) (ct : PG F) : PG F :=
  .op (.waitDma2 (sem4At lS (lsL j)).sem (xL c j) (vSlot (cs j)) (View.wordExact_bits rfl) ((View.wordExact_bits rfl).reshape _ _)) fun _ => ct
abbrev opStoreL (c : Dev nD) (j : Fin 8) (ct : PG F) : PG F :=
  .op (.enqueueDma (vSlot (cs j)) (.here (oL c j)) (.dma (sem4At lS (lsS j)).sem) ((View.wordExact_bits rfl).reshape _ _) (View.wordExact_bits rfl) ⟨Or.inl rfl, trivial⟩) fun _ => ct
abbrev opWaitStoreL (c : Dev nD) (j : Fin 8) (ct : PG F) : PG F :=
  .op (.waitDma2 (sem4At lS (lsS j)).sem (vSlot (cs j)) (oL c j) ((View.wordExact_bits rfl).reshape _ _) (View.wordExact_bits rfl)) fun _ => ct

-- f 0 (f 1 (… (f 31 ct)))
def seqFrom (f : (k : ℕ) → k < 32 → PG F → PG F) : (n k : ℕ) → k + n = 32 → PG F → PG F
  | 0, _, _, ct => ct
  | n + 1, k, h, ct => f k (by omega) (seqFrom f n (k + 1) (by omega) ct)

abbrev progBar (c : Dev nD) (ct : PG F) : PG F :=
  .op (.semSignal (Dev.tc (ynb c)) barS 1) fun _ =>
  .op (.semSignal (Dev.tc (xnb c)) barS 1) fun _ =>
  .op (.semWait barS 2) fun _ => ct
abbrev progB (c : Dev nD) (ct : PG F) : PG F := seqFrom (fun k hk ct => opGather c ⟨k, hk⟩ ct) 32 0 rfl ct
abbrev progC (c : Dev nD) (ct : PG F) : PG F := seqFrom (fun k hk ct => opWaitG c ⟨k, hk⟩ (opSend1 c ⟨k, hk⟩ ct)) 32 0 rfl ct
abbrev slotDG (c x : Dev nD) (k : Fin 32) (ct : PG F) : PG F := opWaitB c k (opSend2G c x k (opStore c k ct))
abbrev slotD (c : Dev nD) (k : Fin 32) (ct : PG F) : PG F := slotDG c (xnb c) k ct
def chunk (c : Dev nD) (j : ℕ) (hj : j < 8) (ct : PG F) : PG F :=
  let body := opLoad c ⟨j, hj⟩ (opWaitLoad c ⟨j, hj⟩ (opStoreL c ⟨j, hj⟩ ct))
  if h : 2 ≤ j then opWaitStoreL c ⟨j - 2, by omega⟩ body else body
def dFromG (c x : Dev nD) : (n j : ℕ) → j + n = 8 → PG F → PG F
  | 0, _, _, ct => ct
  | n + 1, j, h, ct =>
      slotDG c x ⟨4 * j, by omega⟩ (slotDG c x ⟨4 * j + 1, by omega⟩ (slotDG c x ⟨4 * j + 2, by omega⟩ (slotDG c x ⟨4 * j + 3, by omega⟩
        (chunk c j (by omega) (dFromG c x n (j + 1) (by omega) ct)))))
abbrev dFrom (c : Dev nD) (n j : ℕ) (h : j + n = 8) (ct : PG F) : PG F := dFromG c (xnb c) n j h ct
abbrev progD (c : Dev nD) (ct : PG F) : PG F := dFrom c 8 0 rfl ct
abbrev progE0 (c : Dev nD) (ct : PG F) : PG F := opWaitStoreL c 6 (opWaitStoreL c 7 ct)
abbrev progE (c : Dev nD) (ct : PG F) : PG F :=
  seqFrom (fun k hk ct => opWaitA c ⟨k, hk⟩ (opWaitE c ⟨k, hk⟩ (opWaitD c ⟨k, hk⟩ (opWaitT c ⟨k, hk⟩ ct)))) 32 0 rfl ct

-- the whole body, with the device each remote copy addresses as a parameter
abbrev progAllG (c y x : Dev nD) (ct : PG F) : PG F :=
  progBar c (progB c (seqFrom (fun k hk ct => opWaitG c ⟨k, hk⟩ (opSend1G y ⟨k, hk⟩ ct)) 32 0 rfl (dFromG c x 8 0 rfl (progE0 c (progE c ct)))))
abbrev progAll (c : Dev nD) (ct : PG F) : PG F := progAllG c (ynb c) (xnb c) ct

end Cert.KernelIdeal.A2A

end
-- ==== Proof.Proto.lean ====
import proofs.«900033_g7700000000000034_dist_a2a_v7x_xy2x2_y_m4096_n1024_f32_1_alg».proof.Proof.Prog
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev X (d : Dev nD) : Buf (Elt F) ((d : Thread nD τ).loc main_arg0) := m ((d : Thread nD τ).loc main_arg0)

def SomeAt (d : Dev nD) {sp : Space} {s : Shape} (M : Memref sig .tc sp s .f32) : sProp 𝕄 :=
  iprop(∃ f : Buf (Elt F) (M.view.loc (d : Thread nD τ)), (M.view.loc (d : Thread nD τ) ↦[M.view.set]{fullShare} f))
def HoldsAt (q : PosShare TreeShare) (d : Dev nD) {sp : Space} {s : Shape} (M : Memref sig .tc sp s .f32) (V : s.Idx → Elt F .f32) : sProp 𝕄 :=
  iprop(∃ f : Buf (Elt F) (M.view.loc (d : Thread nD τ)), ⌜M.view.read (Elt F) f = V⌝ ∗ (M.view.loc (d : Thread nD τ) ↦[M.view.set]{q} f))
def XG (c : Dev nD) (k : Fin 32) : sProp 𝕄 := ((xG c k).view.loc (c : Thread nD τ) ↦[(xG c k).view.set]{fullShare} X m c)
def XL (c : Dev nD) (j : Fin 8) : sProp 𝕄 := ((xL c j).view.loc (c : Thread nD τ) ↦[(xL c j).view.set]{fullShare} X m c)

abbrev Rv (c : Dev nD) (k : Fin 32) := Gv (ynb c) k (X m (ynb c))
abbrev chunkOf (s : Fin 2) (r : ℕ) (hr : r < 4) : Fin 8 := ⟨2 * r + s.val, by omega⟩

def payBar (c : Dev nD) (d : Bool) : sProp 𝕄 :=
  if d then bigSep Finset.univ (fun k : Fin 32 => (SomeAt (xnb c) (oP c k) : sProp 𝕄)) else SomeAt (ynb c) rM
def payG (c : Dev nD) (k : Fin 32) : sProp 𝕄 := iprop(HoldsAt fullShare c (slotAt sM k) (Gv c k (X m c)) ∗ XG m c k)
def payA (c : Dev nD) (k : Fin 32) : sProp 𝕄 := HoldsAt fullShare c (slotAt sM k) (Gv c k (X m c))
def payB (c : Dev nD) (k : Fin 32) : sProp 𝕄 := HoldsAt fullShare c (slotAt rM k) (Rv m c k)
def payD (c : Dev nD) (k : Fin 32) : sProp 𝕄 := HoldsAt fullShare.left c (slotAt rM k) (Rv m c k)
def payE (c : Dev nD) (k : Fin 32) : sProp 𝕄 := HoldsAt fullShare c (oP (xnb c) k) (Rv m (xnb c) k)
def payT (c : Dev nD) (k : Fin 32) : sProp 𝕄 := iprop(HoldsAt fullShare c (oP c k) (Rv m c k) ∗ HoldsAt fullShare.right c (slotAt rM k) (Rv m c k))
def payL (c : Dev nD) (j : Fin 4) (r : ℕ) : sProp 𝕄 :=
  if hr : r < 4 then
    if hj : j.val < 2 then
      iprop(HoldsAt fullShare c (vSlot ⟨j.val, hj⟩) (Lv c (chunkOf ⟨j.val, hj⟩ r hr) (X m c)) ∗ XL m c (chunkOf ⟨j.val, hj⟩ r hr))
    else
      iprop(HoldsAt fullShare c (oL c (chunkOf ⟨j.val - 2, by omega⟩ r hr)) (Lv c (chunkOf ⟨j.val - 2, by omega⟩ r hr) (X m c))
        ∗ HoldsAt fullShare c (vSlot ⟨j.val - 2, by omega⟩) (Lv c (chunkOf ⟨j.val - 2, by omega⟩ r hr) (X m c)))
  else iprop(emp)

def payDma (c : Dev nD) (s : DmaSem sig) (r : ℕ) : sProp 𝕄 :=
  let k : Fin 32 := ⟨s.val % 32, Nat.mod_lt _ (by decide)⟩
  match s.val / 32 with
  | 0 => payG m c k | 1 => payA m c k | 2 => payB m c k | 3 => payD m c k | 4 => payE m c k | 5 => payT m c k
  | _ => payL m c ⟨s.val % 4, Nat.mod_lt _ (by decide)⟩ r

-- every semaphore is a cell whose owner waits on it: one round of one duty, but for the barrier (two duties) and the chunk cells (four rounds)
def Rd : Rounds.Schedule (GSem nD τ sig) Bool 𝕄 where
  duties g r := match g.2 with
    | .reg _ => if r = 0 ∧ g.1.2 = .tc then Finset.univ else ∅
    | .dma s => if g.1.2 = .tc ∧ ((s.val < 192 ∧ r = 0) ∨ (192 ≤ s.val ∧ r < 4)) then {false} else ∅
  unitless _ := False
  amount g _ _ := match g.2 with
    | .reg _ => 1
    | .dma s => if s.val < 192 then N else NL
  payload g r d := match g.2 with
    | .reg _ => payBar g.1.1 d
    | .dma s => payDma m g.1.1 s r
  amount_pos g _ _ _ := by
    rcases g with ⟨t, sm⟩
    cases sm with
    | reg _ => exact Nat.one_pos
    | dma s =>
      show 0 < (if s.val < 192 then N else NL)
      split
      · exact View.dmaCredit_pos _ (by decide)
      · exact View.dmaCredit_pos _ (by decide)

def O1 (c : Dev nD) : CellTallies nD τ sig Unit := ∑ k : Fin 32, tallyAt (cell bS (ynb c) k) () N
def O2 (c : Dev nD) : CellTallies nD τ sig Unit := ∑ k : Fin 32, tallyAt (cell eS (xnb c) k) () N
def O₀ (c : Dev nD) : CellTallies nD τ sig Unit := (O1 c + O2 c + tallyAt (cellB (xnb c)) () 1) + tallyAt (cellB (ynb c)) () 1

def L (g : GSem nD τ sig) : Finset Unit := if g.1.2 = .tc then {()} else ∅
-- a wait is allowed only below everything still owed
def lv (g : GSem nD τ sig) (_ : Unit) : ℕ := match g.2 with
  | .reg _ => 1
  | .dma s => if s.val / 32 = 2 then 2 else if s.val / 32 = 4 then 3 else 0

end Cert.KernelIdeal.A2A

end
-- ==== Proof.States.lean ====
import proofs.«900033_g7700000000000034_dist_a2a_v7x_xy2x2_y_m4096_n1024_f32_1_alg».proof.Proof.Proto
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : GSem nD τ sig → ℕ)

abbrev pos (g : GSem nD τ sig) (r : ℕ) : sProp 𝕄 := atPos ER g r ∅ 0
abbrev tok (g : GSem nD τ sig) (r : ℕ) : sProp 𝕄 := dutyTok ER g r false
abbrev crd (g : GSem nD τ sig) (n : ℕ) : sProp 𝕄 := cred (tallyAt g () n)

def known (g : GSem nD τ sig) : sProp 𝕄 := iprop(cellInv ER (Rd m) (K g) g ∗ reached ER g 0)
instance known_persistent (g : GSem nD τ sig) : BI.Persistent (known m K g) := by unfold known; infer_instance

def slotKnown (c : Dev nD) (k : Fin 32) : sProp 𝕄 :=
  iprop(known m K (cell gS c k) ∗ known m K (cell aS c k) ∗ known m K (cell bS c k) ∗ known m K (cell dS c k) ∗ known m K (cell eS c k)
    ∗ known m K (cell tS c k) ∗ known m K (cell bS (ynb c) k) ∗ known m K (cell eS (xnb c) k))
instance slotKnown_persistent (c : Dev nD) (k : Fin 32) : BI.Persistent (slotKnown m K c k) := by unfold slotKnown; infer_instance

def Known (c : Dev nD) : sProp 𝕄 :=
  iprop((bigSep Finset.univ fun k : Fin 32 => slotKnown m K c k) ∗ (bigSep Finset.univ fun j : Fin 4 => known m K (cellL c j))
    ∗ known m K (cellB c) ∗ known m K (cellB (ynb c)) ∗ known m K (cellB (xnb c)) ∗ levAts L lv)
instance Known_persistent (c : Dev nD) : BI.Persistent (Known m K c) := by unfold Known; infer_instance

def B0 (c : Dev nD) : sProp 𝕄 :=
  iprop(pos (cellB c) 0 ∗ dutyTok ER (cellB (ynb c)) 0 false ∗ dutyTok ER (cellB (xnb c)) 0 true ∗ crd (cellB c) 2
    ∗ SomeAt c rM ∗ bigSep Finset.univ fun k : Fin 32 => (SomeAt c (oP (xnb c) k) : sProp 𝕄))
def B1 (c : Dev nD) : sProp 𝕄 :=
  iprop(pos (cellB c) 1 ∗ SomeAt (ynb c) rM ∗ bigSep Finset.univ fun k : Fin 32 => (SomeAt (xnb c) (oP c k) : sProp 𝕄))

def Sinit (c : Dev nD) (k : Fin 32) : sProp 𝕄 :=
  iprop(pos (cell gS c k) 0 ∗ pos (cell aS c k) 0 ∗ pos (cell bS c k) 0 ∗ pos (cell dS c k) 0 ∗ pos (cell eS c k) 0 ∗ pos (cell tS c k) 0
    ∗ tok (cell gS c k) 0 ∗ tok (cell aS c k) 0 ∗ tok (cell dS c k) 0 ∗ tok (cell tS c k) 0 ∗ tok (cell bS (ynb c) k) 0 ∗ tok (cell eS (xnb c) k) 0
    ∗ crd (cell bS c k) N ∗ crd (cell eS c k) N
    ∗ XG m c k ∗ SomeAt c (slotAt sM k) ∗ SomeAt c (oP c k))
def S0 (c : Dev nD) (k : Fin 32) : sProp 𝕄 :=
  iprop(Sinit m c k ∗ SomeAt (ynb c) (slotAt rM k) ∗ SomeAt (xnb c) (oP c k))
def S1 (c : Dev nD) (k : Fin 32) : sProp 𝕄 :=
  iprop(pos (cell gS c k) 0 ∗ pos (cell aS c k) 0 ∗ pos (cell bS c k) 0 ∗ pos (cell dS c k) 0 ∗ pos (cell eS c k) 0 ∗ pos (cell tS c k) 0
    ∗ tok (cell aS c k) 0 ∗ tok (cell dS c k) 0 ∗ tok (cell tS c k) 0 ∗ tok (cell bS (ynb c) k) 0 ∗ tok (cell eS (xnb c) k) 0
    ∗ crd (cell bS c k) N ∗ crd (cell eS c k) N ∗ crd (cell gS c k) N
    ∗ SomeAt c (oP c k) ∗ SomeAt (ynb c) (slotAt rM k) ∗ SomeAt (xnb c) (oP c k))
def S3 (c : Dev nD) (k : Fin 32) : sProp 𝕄 :=
  iprop(pos (cell gS c k) 1 ∗ pos (cell aS c k) 0 ∗ pos (cell bS c k) 0 ∗ pos (cell dS c k) 0 ∗ pos (cell eS c k) 0 ∗ pos (cell tS c k) 0
    ∗ tok (cell dS c k) 0 ∗ tok (cell tS c k) 0 ∗ tok (cell eS (xnb c) k) 0
    ∗ crd (cell bS c k) N ∗ crd (cell eS c k) N ∗ crd (cell aS c k) N
    ∗ XG m c k ∗ SomeAt c (oP c k) ∗ SomeAt (xnb c) (oP c k))
def S6 (c : Dev nD) (k : Fin 32) : sProp 𝕄 :=
  iprop(pos (cell gS c k) 1 ∗ pos (cell aS c k) 0 ∗ pos (cell bS c k) 1 ∗ pos (cell dS c k) 0 ∗ pos (cell eS c k) 0 ∗ pos (cell tS c k) 0
    ∗ crd (cell eS c k) N ∗ crd (cell aS c k) N ∗ crd (cell dS c k) N ∗ crd (cell tS c k) N
    ∗ XG m c k)
def S10 (c : Dev nD) (k : Fin 32) : sProp 𝕄 :=
  iprop(pos (cell gS c k) 1 ∗ pos (cell aS c k) 1 ∗ pos (cell bS c k) 1 ∗ pos (cell dS c k) 1 ∗ pos (cell eS c k) 1 ∗ pos (cell tS c k) 1
    ∗ XG m c k ∗ HoldsAt fullShare c (slotAt sM k) (Gv c k (X m c))
    ∗ HoldsAt fullShare.left c (slotAt rM k) (Rv m c k) ∗ HoldsAt fullShare.right c (slotAt rM k) (Rv m c k)
    ∗ HoldsAt fullShare c (oP c k) (Rv m c k) ∗ HoldsAt fullShare c (oP (xnb c) k) (Rv m (xnb c) k))

abbrev lo (c : Dev nD) (s : Fin 2) : GSem nD τ sig := cellL c ⟨s.val, by omega⟩
abbrev st (c : Dev nD) (s : Fin 2) : GSem nD τ sig := cellL c ⟨2 + s.val, by omega⟩
abbrev ch (s : Fin 2) (r : Fin 4) : Fin 8 := chunkOf s r.val r.isLt

def V0 (c : Dev nD) (s : Fin 2) : sProp 𝕄 :=
  iprop(pos (lo c s) 0 ∗ pos (st c s) 0 ∗ (bigSep Finset.univ fun r : Fin 4 => tok (lo c s) r.val) ∗ (bigSep Finset.univ fun r : Fin 4 => tok (st c s) r.val)
    ∗ SomeAt c (vSlot s) ∗ (bigSep Finset.univ fun r : Fin 4 => XL m c (ch s r)) ∗ (bigSep Finset.univ fun r : Fin 4 => (SomeAt c (oL c (ch s r)) : sProp 𝕄)))
def V1 (c : Dev nD) (s : Fin 2) : sProp 𝕄 :=
  iprop(pos (lo c s) 4 ∗ pos (st c s) 3 ∗ crd (st c s) NL ∗ (bigSep Finset.univ fun r : Fin 4 => XL m c (ch s r))
    ∗ (bigSep Finset.univ fun r : Fin 3 => HoldsAt fullShare c (oL c (ch s (Fin.castSucc r))) (Lv c (ch s (Fin.castSucc r)) (X m c))))
def V2 (c : Dev nD) (s : Fin 2) : sProp 𝕄 :=
  iprop(pos (lo c s) 4 ∗ pos (st c s) 4 ∗ (bigSep Finset.univ fun r : Fin 4 => XL m c (ch s r))
    ∗ (bigSep Finset.univ fun r : Fin 4 => HoldsAt fullShare c (oL c (ch s r)) (Lv c (ch s r) (X m c))) ∗ SomeAt c (vSlot s))

end Cert.KernelIdeal.A2A

end
-- ==== Proof.Sched.lean ====
import proofs.«900033_g7700000000000034_dist_a2a_v7x_xy2x2_y_m4096_n1024_f32_1_alg».proof.Proof.States
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem ix_g (k : Fin 32) : ((semAt gS k).sem).val = k.val := by
  first | rfl | (fin_cases k <;> rfl)
theorem ix_a (k : Fin 32) : ((semAt aS k).sem).val = 32 + k.val := by
  first | rfl | (fin_cases k <;> rfl)
theorem ix_b (k : Fin 32) : ((semAt bS k).sem).val = 64 + k.val := by
  first | rfl | (fin_cases k <;> rfl)
theorem ix_d (k : Fin 32) : ((semAt dS k).sem).val = 96 + k.val := by
  first | rfl | (fin_cases k <;> rfl)
theorem ix_e (k : Fin 32) : ((semAt eS k).sem).val = 128 + k.val := by
  first | rfl | (fin_cases k <;> rfl)
theorem ix_t (k : Fin 32) : ((semAt tS k).sem).val = 160 + k.val := by
  first | rfl | (fin_cases k <;> rfl)
theorem ix_L (j : Fin 4) : ((sem4At lS j).sem).val = 192 + j.val := by
  first | rfl | (fin_cases j <;> rfl)

theorem duties_dma0 (c : Dev nD) (s : DmaSem sig) (h : s.val < 192) :
    (Rd (F := F) m).duties (((c : Thread nD τ), SemLoc.dma s) : GSem nD τ sig) 0 = {false} := by
  dsimp only [Rd]; exact if_pos ⟨rfl, .inl ⟨h, rfl⟩⟩
theorem later_dma0 (c : Dev nD) (s : DmaSem sig) (h : s.val < 192) :
    ∀ r, 1 ≤ r → (Rd (F := F) m).duties (((c : Thread nD τ), SemLoc.dma s) : GSem nD τ sig) r = ∅ := by
  intro r hr; dsimp only [Rd]
  exact if_neg (fun h' => by rcases h'.2 with h1 | h1 <;> omega)
theorem amount_dma0 (c : Dev nD) (s : DmaSem sig) (h : s.val < 192) (r : ℕ) (d : Bool) :
    (Rd (F := F) m).amount (((c : Thread nD τ), SemLoc.dma s) : GSem nD τ sig) r d = N := by
  dsimp only [Rd]; exact if_pos h
theorem duties_dma1 (c : Dev nD) (s : DmaSem sig) (h : 192 ≤ s.val) (r : ℕ) (hr : r < 4) :
    (Rd (F := F) m).duties (((c : Thread nD τ), SemLoc.dma s) : GSem nD τ sig) r = {false} := by
  dsimp only [Rd]; exact if_pos ⟨rfl, .inr ⟨h, hr⟩⟩
theorem later_dma1 (c : Dev nD) (s : DmaSem sig) (h : 192 ≤ s.val) :
    ∀ r, 4 ≤ r → (Rd (F := F) m).duties (((c : Thread nD τ), SemLoc.dma s) : GSem nD τ sig) r = ∅ := by
  intro r hr; dsimp only [Rd]
  exact if_neg (fun h' => by rcases h'.2 with h1 | h1 <;> omega)
theorem amount_dma1 (c : Dev nD) (s : DmaSem sig) (h : 192 ≤ s.val) (r : ℕ) (d : Bool) :
    (Rd (F := F) m).amount (((c : Thread nD τ), SemLoc.dma s) : GSem nD τ sig) r d = NL := by
  dsimp only [Rd]; exact if_neg (by omega)
theorem payload_dma (c : Dev nD) (s : DmaSem sig) (r : ℕ) (d : Bool) :
    (Rd (F := F) m).payload (((c : Thread nD τ), SemLoc.dma s) : GSem nD τ sig) r d = payDma m c s r := rfl

theorem payDma_g (c : Dev nD) (s : DmaSem sig) (k : Fin 32) (r : ℕ) (h : s.val = k.val) : payDma m c s r = payG m c k := by
  have hk := k.isLt
  have h1 : s.val / 32 = 0 := by omega
  have h2 : (⟨s.val % 32, Nat.mod_lt _ (by decide)⟩ : Fin 32) = k := Fin.ext (by show s.val % 32 = k.val; omega)
  unfold payDma
  simp only [h1, h2]
theorem payDma_a (c : Dev nD) (s : DmaSem sig) (k : Fin 32) (r : ℕ) (h : s.val = 32 + k.val) : payDma m c s r = payA m c k := by
  have hk := k.isLt
  have h1 : s.val / 32 = 1 := by omega
  have h2 : (⟨s.val % 32, Nat.mod_lt _ (by decide)⟩ : Fin 32) = k := Fin.ext (by show s.val % 32 = k.val; omega)
  unfold payDma
  simp only [h1, h2]
theorem payDma_b (c : Dev nD) (s : DmaSem sig) (k : Fin 32) (r : ℕ) (h : s.val = 64 + k.val) : payDma m c s r = payB m c k := by
  have hk := k.isLt
  have h1 : s.val / 32 = 2 := by omega
  have h2 : (⟨s.val % 32, Nat.mod_lt _ (by decide)⟩ : Fin 32) = k := Fin.ext (by show s.val % 32 = k.val; omega)
  unfold payDma
  simp only [h1, h2]
theorem payDma_d (c : Dev nD) (s : DmaSem sig) (k : Fin 32) (r : ℕ) (h : s.val = 96 + k.val) : payDma m c s r = payD m c k := by
  have hk := k.isLt
  have h1 : s.val / 32 = 3 := by omega
  have h2 : (⟨s.val % 32, Nat.mod_lt _ (by decide)⟩ : Fin 32) = k := Fin.ext (by show s.val % 32 = k.val; omega)
  unfold payDma
  simp only [h1, h2]
theorem payDma_e (c : Dev nD) (s : DmaSem sig) (k : Fin 32) (r : ℕ) (h : s.val = 128 + k.val) : payDma m c s r = payE m c k := by
  have hk := k.isLt
  have h1 : s.val / 32 = 4 := by omega
  have h2 : (⟨s.val % 32, Nat.mod_lt _ (by decide)⟩ : Fin 32) = k := Fin.ext (by show s.val % 32 = k.val; omega)
  unfold payDma
  simp only [h1, h2]
theorem payDma_t (c : Dev nD) (s : DmaSem sig) (k : Fin 32) (r : ℕ) (h : s.val = 160 + k.val) : payDma m c s r = payT m c k := by
  have hk := k.isLt
  have h1 : s.val / 32 = 5 := by omega
  have h2 : (⟨s.val % 32, Nat.mod_lt _ (by decide)⟩ : Fin 32) = k := Fin.ext (by show s.val % 32 = k.val; omega)
  unfold payDma
  simp only [h1, h2]
theorem payDma_L (c : Dev nD) (s : DmaSem sig) (j : Fin 4) (r : ℕ) (h : s.val = 192 + j.val) : payDma m c s r = payL m c j r := by
  have hj := j.isLt
  have h1 : s.val / 32 = 6 := by omega
  have h2 : (⟨s.val % 4, Nat.mod_lt _ (by decide)⟩ : Fin 4) = j := Fin.ext (by show s.val % 4 = j.val; omega)
  unfold payDma
  simp only [h1, h2]

theorem duties_bar (c : Dev nD) : (Rd (F := F) m).duties (cellB c) 0 = Finset.univ := by
  dsimp only [Rd]; exact if_pos ⟨rfl, rfl⟩
theorem amount_bar (c : Dev nD) (r : ℕ) (d : Bool) : (Rd (F := F) m).amount (cellB c) r d = 1 := rfl
theorem expect_bar (c : Dev nD) : (Rd (F := F) m).expect (cellB c) 0 = 2 := by
  unfold Schedule.expect Schedule.amountOf
  rw [duties_bar, Finset.sum_congr rfl fun d _ => amount_bar m c 0 d, Finset.sum_const, Finset.card_univ, Fintype.card_bool, smul_eq_mul]
theorem payload_bar (c : Dev nD) (d : Bool) : (Rd (F := F) m).payload (cellB c) 0 d = payBar c d := rfl
theorem rest_bar (c : Dev nD) : bigSep ((Rd (F := F) m).duties (cellB c) 0 \ ∅) (fun d => (Rd (F := F) m).payload (cellB c) 0 d) = iprop(payBar (F := F) c false ∗ payBar c true) := by
  rw [Finset.sdiff_empty, duties_bar, bigSep_univ_eq_bigSepL [false, true] (by decide) (by decide), bigSepL_cons_cons, bigSepL_singleton,
    payload_bar, payload_bar]
  rfl

theorem duties_g (c : Dev nD) (k : Fin 32) : (Rd (F := F) m).duties (cell gS c k) 0 = {false} :=
  duties_dma0 m c _ (by rw [ix_g k]; have := k.isLt; omega)
theorem amount_g (c : Dev nD) (k : Fin 32) (r : ℕ) (d : Bool) : (Rd (F := F) m).amount (cell gS c k) r d = N :=
  amount_dma0 m c _ (by rw [ix_g k]; have := k.isLt; omega) r d
theorem expect_g (c : Dev nD) (k : Fin 32) : (Rd (F := F) m).expect (cell gS c k) 0 = N := by
  unfold Schedule.expect Schedule.amountOf; rw [duties_g, Finset.sum_singleton, amount_g]
theorem payload_g (c : Dev nD) (k : Fin 32) (d : Bool) : (Rd (F := F) m).payload (cell gS c k) 0 d = payG m c k :=
  (payload_dma m c _ 0 d).trans (payDma_g m c _ k 0 (ix_g k))
theorem rest_g (c : Dev nD) (k : Fin 32) : bigSep ((Rd (F := F) m).duties (cell gS c k) 0 \ ∅) (fun d => (Rd (F := F) m).payload (cell gS c k) 0 d) = payG m c k := by
  rw [Finset.sdiff_empty, duties_g, bigSep_singleton, payload_g]
theorem later_g (c : Dev nD) (k : Fin 32) : ∀ r, 1 ≤ r → (Rd (F := F) m).duties (cell gS c k) r = ∅ :=
  later_dma0 m c _ (by rw [ix_g k]; have := k.isLt; omega)

theorem duties_a (c : Dev nD) (k : Fin 32) : (Rd (F := F) m).duties (cell aS c k) 0 = {false} :=
  duties_dma0 m c _ (by rw [ix_a k]; have := k.isLt; omega)
theorem amount_a (c : Dev nD) (k : Fin 32) (r : ℕ) (d : Bool) : (Rd (F := F) m).amount (cell aS c k) r d = N :=
  amount_dma0 m c _ (by rw [ix_a k]; have := k.isLt; omega) r d
theorem expect_a (c : Dev nD) (k : Fin 32) : (Rd (F := F) m).expect (cell aS c k) 0 = N := by
  unfold Schedule.expect Schedule.amountOf; rw [duties_a, Finset.sum_singleton, amount_a]
theorem payload_a (c : Dev nD) (k : Fin 32) (d : Bool) : (Rd (F := F) m).payload (cell aS c k) 0 d = payA m c k :=
  (payload_dma m c _ 0 d).trans (payDma_a m c _ k 0 (ix_a k))
theorem rest_a (c : Dev nD) (k : Fin 32) : bigSep ((Rd (F := F) m).duties (cell aS c k) 0 \ ∅) (fun d => (Rd (F := F) m).payload (cell aS c k) 0 d) = payA m c k := by
  rw [Finset.sdiff_empty, duties_a, bigSep_singleton, payload_a]
theorem later_a (c : Dev nD) (k : Fin 32) : ∀ r, 1 ≤ r → (Rd (F := F) m).duties (cell aS c k) r = ∅ :=
  later_dma0 m c _ (by rw [ix_a k]; have := k.isLt; omega)

theorem duties_b (c : Dev nD) (k : Fin 32) : (Rd (F := F) m).duties (cell bS c k) 0 = {false} :=
  duties_dma0 m c _ (by rw [ix_b k]; have := k.isLt; omega)
theorem amount_b (c : Dev nD) (k : Fin 32) (r : ℕ) (d : Bool) : (Rd (F := F) m).amount (cell bS c k) r d = N :=
  amount_dma0 m c _ (by rw [ix_b k]; have := k.isLt; omega) r d
theorem expect_b (c : Dev nD) (k : Fin 32) : (Rd (F := F) m).expect (cell bS c k) 0 = N := by
  unfold Schedule.expect Schedule.amountOf; rw [duties_b, Finset.sum_singleton, amount_b]
theorem payload_b (c : Dev nD) (k : Fin 32) (d : Bool) : (Rd (F := F) m).payload (cell bS c k) 0 d = payB m c k :=
  (payload_dma m c _ 0 d).trans (payDma_b m c _ k 0 (ix_b k))
theorem rest_b (c : Dev nD) (k : Fin 32) : bigSep ((Rd (F := F) m).duties (cell bS c k) 0 \ ∅) (fun d => (Rd (F := F) m).payload (cell bS c k) 0 d) = payB m c k := by
  rw [Finset.sdiff_empty, duties_b, bigSep_singleton, payload_b]
theorem later_b (c : Dev nD) (k : Fin 32) : ∀ r, 1 ≤ r → (Rd (F := F) m).duties (cell bS c k) r = ∅ :=
  later_dma0 m c _ (by rw [ix_b k]; have := k.isLt; omega)

theorem duties_d (c : Dev nD) (k : Fin 32) : (Rd (F := F) m).duties (cell dS c k) 0 = {false} :=
  duties_dma0 m c _ (by rw [ix_d k]; have := k.isLt; omega)
theorem amount_d (c : Dev nD) (k : Fin 32) (r : ℕ) (d : Bool) : (Rd (F := F) m).amount (cell dS c k) r d = N :=
  amount_dma0 m c _ (by rw [ix_d k]; have := k.isLt; omega) r d
theorem expect_d (c : Dev nD) (k : Fin 32) : (Rd (F := F) m).expect (cell dS c k) 0 = N := by
  unfold Schedule.expect Schedule.amountOf; rw [duties_d, Finset.sum_singleton, amount_d]
theorem payload_d (c : Dev nD) (k : Fin 32) (d : Bool) : (Rd (F := F) m).payload (cell dS c k) 0 d = payD m c k :=
  (payload_dma m c _ 0 d).trans (payDma_d m c _ k 0 (ix_d k))
theorem rest_d (c : Dev nD) (k : Fin 32) : bigSep ((Rd (F := F) m).duties (cell dS c k) 0 \ ∅) (fun d => (Rd (F := F) m).payload (cell dS c k) 0 d) = payD m c k := by
  rw [Finset.sdiff_empty, duties_d, bigSep_singleton, payload_d]
theorem later_d (c : Dev nD) (k : Fin 32) : ∀ r, 1 ≤ r → (Rd (F := F) m).duties (cell dS c k) r = ∅ :=
  later_dma0 m c _ (by rw [ix_d k]; have := k.isLt; omega)

theorem duties_e (c : Dev nD) (k : Fin 32) : (Rd (F := F) m).duties (cell eS c k) 0 = {false} :=
  duties_dma0 m c _ (by rw [ix_e k]; have := k.isLt; omega)
theorem amount_e (c : Dev nD) (k : Fin 32) (r : ℕ) (d : Bool) : (Rd (F := F) m).amount (cell eS c k) r d = N :=
  amount_dma0 m c _ (by rw [ix_e k]; have := k.isLt; omega) r d
theorem expect_e (c : Dev nD) (k : Fin 32) : (Rd (F := F) m).expect (cell eS c k) 0 = N := by
  unfold Schedule.expect Schedule.amountOf; rw [duties_e, Finset.sum_singleton, amount_e]
theorem payload_e (c : Dev nD) (k : Fin 32) (d : Bool) : (Rd (F := F) m).payload (cell eS c k) 0 d = payE m c k :=
  (payload_dma m c _ 0 d).trans (payDma_e m c _ k 0 (ix_e k))
theorem rest_e (c : Dev nD) (k : Fin 32) : bigSep ((Rd (F := F) m).duties (cell eS c k) 0 \ ∅) (fun d => (Rd (F := F) m).payload (cell eS c k) 0 d) = payE m c k := by
  rw [Finset.sdiff_empty, duties_e, bigSep_singleton, payload_e]
theorem later_e (c : Dev nD) (k : Fin 32) : ∀ r, 1 ≤ r → (Rd (F := F) m).duties (cell eS c k) r = ∅ :=
  later_dma0 m c _ (by rw [ix_e k]; have := k.isLt; omega)

theorem duties_t (c : Dev nD) (k : Fin 32) : (Rd (F := F) m).duties (cell tS c k) 0 = {false} :=
  duties_dma0 m c _ (by rw [ix_t k]; have := k.isLt; omega)
theorem amount_t (c : Dev nD) (k : Fin 32) (r : ℕ) (d : Bool) : (Rd (F := F) m).amount (cell tS c k) r d = N :=
  amount_dma0 m c _ (by rw [ix_t k]; have := k.isLt; omega) r d
theorem expect_t (c : Dev nD) (k : Fin 32) : (Rd (F := F) m).expect (cell tS c k) 0 = N := by
  unfold Schedule.expect Schedule.amountOf; rw [duties_t, Finset.sum_singleton, amount_t]
theorem payload_t (c : Dev nD) (k : Fin 32) (d : Bool) : (Rd (F := F) m).payload (cell tS c k) 0 d = payT m c k :=
  (payload_dma m c _ 0 d).trans (payDma_t m c _ k 0 (ix_t k))
theorem rest_t (c : Dev nD) (k : Fin 32) : bigSep ((Rd (F := F) m).duties (cell tS c k) 0 \ ∅) (fun d => (Rd (F := F) m).payload (cell tS c k) 0 d) = payT m c k := by
  rw [Finset.sdiff_empty, duties_t, bigSep_singleton, payload_t]
theorem later_t (c : Dev nD) (k : Fin 32) : ∀ r, 1 ≤ r → (Rd (F := F) m).duties (cell tS c k) r = ∅ :=
  later_dma0 m c _ (by rw [ix_t k]; have := k.isLt; omega)

theorem duties_L (c : Dev nD) (j : Fin 4) (r : ℕ) (hr : r < 4) : (Rd (F := F) m).duties (cellL c j) r = {false} :=
  duties_dma1 m c _ (by rw [ix_L j]; omega) r hr
theorem amount_L (c : Dev nD) (j : Fin 4) (r : ℕ) (d : Bool) : (Rd (F := F) m).amount (cellL c j) r d = NL :=
  amount_dma1 m c _ (by rw [ix_L j]; omega) r d
theorem expect_L (c : Dev nD) (j : Fin 4) (r : ℕ) (hr : r < 4) : (Rd (F := F) m).expect (cellL c j) r = NL := by
  unfold Schedule.expect Schedule.amountOf; rw [duties_L m c j r hr, Finset.sum_singleton, amount_L]
theorem payload_L (c : Dev nD) (j : Fin 4) (r : ℕ) (d : Bool) : (Rd (F := F) m).payload (cellL c j) r d = payL m c j r :=
  (payload_dma m c _ r d).trans (payDma_L m c _ j r (ix_L j))
theorem rest_L (c : Dev nD) (j : Fin 4) (r : ℕ) (hr : r < 4) : bigSep ((Rd (F := F) m).duties (cellL c j) r \ ∅) (fun d => (Rd (F := F) m).payload (cellL c j) r d) = payL m c j r := by
  rw [Finset.sdiff_empty, duties_L m c j r hr, bigSep_singleton, payload_L]
theorem later_L (c : Dev nD) (j : Fin 4) : ∀ r, 4 ≤ r → (Rd (F := F) m).duties (cellL c j) r = ∅ :=
  later_dma1 m c _ (by rw [ix_L j]; omega)

theorem amt_slot (A : Memref sig .tc .vmem S32x64x1024 .f32) (k : Fin 32) (s : DmaSem sig) : (slotAt A k).view.amount (.dma s) = N := by
  first | rfl | decide | simp [View.amount, View.dmaCredit]
theorem amt_oP (c : Dev nD) (k : Fin 32) (s : DmaSem sig) : (oP c k).view.amount (.dma s) = N := by
  first | rfl | decide | simp [View.amount, View.dmaCredit]
theorem amt_vSlot (v : Fin 2) (s : DmaSem sig) : (vSlot v).view.amount (.dma s) = NL := by
  first | rfl | decide | simp [View.amount, View.dmaCredit]
theorem amt_oL (c : Dev nD) (j : Fin 8) (s : DmaSem sig) : (oL c j).view.amount (.dma s) = NL := by
  first | rfl | decide | simp [View.amount, View.dmaCredit]

instance payBar_storable (c : Dev nD) (d : Bool) : BI.Storable (upEmb : UEmb _ 𝕄) (payBar (F := F) c d) := by
  unfold payBar SomeAt
  split <;> infer_instance
instance payG_storable (c : Dev nD) (k : Fin 32) : BI.Storable (upEmb : UEmb _ 𝕄) (payG m c k) := by
  unfold payG HoldsAt XG; infer_instance
instance payA_storable (c : Dev nD) (k : Fin 32) : BI.Storable (upEmb : UEmb _ 𝕄) (payA m c k) := by
  unfold payA HoldsAt; infer_instance
instance payB_storable (c : Dev nD) (k : Fin 32) : BI.Storable (upEmb : UEmb _ 𝕄) (payB m c k) := by
  unfold payB HoldsAt; infer_instance
instance payD_storable (c : Dev nD) (k : Fin 32) : BI.Storable (upEmb : UEmb _ 𝕄) (payD m c k) := by
  unfold payD HoldsAt; infer_instance
instance payE_storable (c : Dev nD) (k : Fin 32) : BI.Storable (upEmb : UEmb _ 𝕄) (payE m c k) := by
  unfold payE HoldsAt; infer_instance
instance payT_storable (c : Dev nD) (k : Fin 32) : BI.Storable (upEmb : UEmb _ 𝕄) (payT m c k) := by
  unfold payT HoldsAt; infer_instance
instance payL_storable (c : Dev nD) (j : Fin 4) (r : ℕ) : BI.Storable (upEmb : UEmb _ 𝕄) (payL m c j r) := by
  unfold payL
  split
  · split
    · unfold HoldsAt XL; infer_instance
    · unfold HoldsAt; infer_instance
  · infer_instance
instance payDma_storable (c : Dev nD) (s : DmaSem sig) (r : ℕ) : BI.Storable (upEmb : UEmb _ 𝕄) (payDma m c s r) := by
  unfold payDma
  dsimp only
  split <;> infer_instance

instance Rd_payload_storable (g : GSem nD τ sig) (r : ℕ) (d : Bool) : BI.Storable (upEmb : UEmb _ 𝕄) ((Rd (F := F) m).payload g r d) := by
  rcases g with ⟨t, sm⟩
  cases sm with
  | reg s => exact payBar_storable t.1 d
  | dma s => exact payDma_storable m t.1 s r

theorem L_tc (c : Dev nD) (sm : SemLoc sig) : L ((c : Thread nD τ), sm) = {()} := if_pos rfl
theorem L_of_ne (g : GSem nD τ sig) (h : g.1.2 ≠ .tc) : L g = ∅ := if_neg h

theorem mayWait_of (c : Dev nD) (sm : SemLoc sig) (O : CellTallies nD τ sig Unit)
    (h : ∀ (g : GSem nD τ sig) (u : Unit), 0 < O g u → g.1.2 = .tc ∧ lv ((c : Thread nD τ), sm) () < lv g ()) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by
      show u ∈ (if g.1.2 = .tc then ({()} : Finset Unit) else ∅)
      rw [if_pos (h g u hg).1]; exact Finset.mem_singleton.mpr rfl)
    (fun p hp => by rw [Finset.mem_singleton.mp hp])
    (fun g u hg => (h g u hg).2)

theorem lv_dma (c : Dev nD) (s : DmaSem sig) :
    lv (((c : Thread nD τ), SemLoc.dma s) : GSem nD τ sig) () = if s.val / 32 = 2 then 2 else if s.val / 32 = 4 then 3 else 0 := rfl
theorem lv_g (c : Dev nD) (k : Fin 32) : lv (cell gS c k) () = 0 := by
  have h := ix_g k; have hk := k.isLt
  rw [lv_dma, if_neg (by omega), if_neg (by omega)]
theorem lv_b (c : Dev nD) (k : Fin 32) : lv (cell bS c k) () = 2 := by
  have h := ix_b k; have hk := k.isLt
  rw [lv_dma, if_pos (by omega)]
theorem lv_e (c : Dev nD) (k : Fin 32) : lv (cell eS c k) () = 3 := by
  have h := ix_e k; have hk := k.isLt
  rw [lv_dma, if_neg (by omega), if_pos (by omega)]
theorem lv_L (c : Dev nD) (j : Fin 4) : lv (cellL c j) () = 0 := by
  have h := ix_L j; have hj := j.isLt
  rw [lv_dma, if_neg (by omega), if_neg (by omega)]

theorem O1_pos {c : Dev nD} {g : GSem nD τ sig} {u : Unit} (S : Finset (Fin 32)) (h : 0 < (∑ k ∈ S, tallyAt (cell bS (ynb c) k) () N : CellTallies nD τ sig Unit) g u) :
    ∃ k ∈ S, g = cell bS (ynb c) k := by
  obtain ⟨k, hk, hpos⟩ := Pipeline.sum_pos_exists h
  rw [tallyAt_apply] at hpos
  by_cases hg : g = cell bS (ynb c) k ∧ u = ()
  · exact ⟨k, hk, hg.1⟩
  · rw [if_neg hg] at hpos; exact absurd hpos (Nat.lt_irrefl 0)
theorem O2_pos {c : Dev nD} {g : GSem nD τ sig} {u : Unit} (S : Finset (Fin 32)) (h : 0 < (∑ k ∈ S, tallyAt (cell eS (xnb c) k) () N : CellTallies nD τ sig Unit) g u) :
    ∃ k ∈ S, g = cell eS (xnb c) k := by
  obtain ⟨k, hk, hpos⟩ := Pipeline.sum_pos_exists h
  rw [tallyAt_apply] at hpos
  by_cases hg : g = cell eS (xnb c) k ∧ u = ()
  · exact ⟨k, hk, hg.1⟩
  · rw [if_neg hg] at hpos; exact absurd hpos (Nat.lt_irrefl 0)

end Cert.KernelIdeal.A2A

end
-- ==== Proof.Body.lean ====
import proofs.«900033_g7700000000000034_dist_a2a_v7x_xy2x2_y_m4096_n1024_f32_1_alg».proof.Proof.Sched
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def SlotLin (c : Dev nD) (k : Fin 32) : sProp 𝕄 :=
  iprop(pos (cell gS c k) 0 ∗ pos (cell aS c k) 0 ∗ pos (cell bS c k) 0 ∗ pos (cell dS c k) 0 ∗ pos (cell eS c k) 0 ∗ pos (cell tS c k) 0
    ∗ tok (cell gS c k) 0 ∗ tok (cell aS c k) 0 ∗ tok (cell dS c k) 0 ∗ tok (cell tS c k) 0 ∗ tok (cell bS (ynb c) k) 0 ∗ tok (cell eS (xnb c) k) 0)
def VLin (c : Dev nD) (s : Fin 2) : sProp 𝕄 :=
  iprop(pos (lo c s) 0 ∗ pos (st c s) 0 ∗ (bigSep Finset.univ fun r : Fin 4 => tok (lo c s) r.val) ∗ (bigSep Finset.univ fun r : Fin 4 => tok (st c s) r.val))
def Lin (c : Dev nD) : sProp 𝕄 :=
  iprop((pos (cellB c) 0 ∗ dutyTok ER (cellB (ynb c)) 0 false ∗ dutyTok ER (cellB (xnb c)) 0 true)
    ∗ (bigSep Finset.univ fun k : Fin 32 => SlotLin c k) ∗ (bigSep Finset.univ fun s : Fin 2 => VLin c s))
def Creds (c : Dev nD) : sProp 𝕄 :=
  iprop(crd (cellB c) 2 ∗ bigSep Finset.univ fun k : Fin 32 => iprop(crd (cell bS c k) N ∗ crd (cell eS c k) N))
def Start (c : Dev nD) : sProp 𝕄 := iprop(∃ K : GSem nD τ sig → ℕ, Known m K c ∗ Lin c ∗ Creds c)

def ArrIn (c : Dev nD) : sProp 𝕄 :=
  iprop((((c : Thread nD τ).loc main_arg0) ↦{fullShare} X m c) ∗ ∃ V : Buf (Elt F) ((c : Thread nD τ).loc main_v1), (((c : Thread nD τ).loc main_v1) ↦{fullShare} V))
def ArrOut (c : Dev nD) : sProp 𝕄 :=
  iprop((((c : Thread nD τ).loc main_arg0) ↦{fullShare} X m c)
    ∗ ∃ Fo : Buf (Elt F) ((c : Thread nD τ).loc main_v1), ⌜ResultOk (fun d => X m d) c Fo⌝ ∗ (((c : Thread nD τ).loc main_v1) ↦{fullShare} Fo))
def Scratch (c : Dev nD) : sProp 𝕄 := iprop(SomeAt c sM ∗ SomeAt c rM ∗ SomeAt c vM)

abbrev osem : Fin 196 → SemLoc sig := fun i => .dma i

def Φ₀ (c : Dev nD) : sProp 𝕄 := iprop(Start m c ∗ ArrIn m c ∗ Scratch c)
def Φ₁ (c : Dev nD) : sProp 𝕄 := iprop(ArrOut m c ∗ Scratch c ∗ Pipeline.ownSems0 (Ix := Unit) (Name := ℕ) (U := UU) (Lvl := ℕ) (Val := Elt F) (τ := τ) osem c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.KernelIdeal.A2A

end
-- ==== Proof.PhaseAB.lean ====
import proofs.«900033_g7700000000000034_dist_a2a_v7x_xy2x2_y_m4096_n1024_f32_1_alg».proof.Proof.Sched
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {dfs : Defs nD τ sig (Elt F) Λ₀}

local notation "𝕄" => MT nD τ sig Unit (Elt F) ℕ UU ℕ

variable (m : (ℓ : Loc nD τ sig) → Buf (Elt F) ℓ) (K : GSem nD τ sig → ℕ)

theorem hops_above (c : Dev nD) (sm : SemLoc sig) (S1 S2 : Finset (Fin 32)) (hsm : lv ((c : Thread nD τ), sm) () < 2)
    (g : GSem nD τ sig) (u : Unit)
    (h : 0 < ((∑ k ∈ S1, tallyAt (cell bS (ynb c) k) () N) + (∑ k ∈ S2, tallyAt (cell eS (xnb c) k) () N) : CellTallies nD τ sig Unit) g u) :
    g.1.2 = .tc ∧ lv ((c : Thread nD τ), sm) () < lv g () := by
  rw [Pi.add_apply, Finsupp.add_apply] at h
  rcases Nat.add_pos_iff_pos_or_pos.mp h with h1 | h2
  · obtain ⟨k, _, rfl⟩ := O1_pos S1 h1
    exact ⟨rfl, by rw [lv_b]; exact hsm⟩
  · obtain ⟨k, _, rfl⟩ := O2_pos S2 h2
    exact ⟨rfl, by rw [lv_e]; omega⟩

theorem payload_bar_y (c : Dev nD) : (Rd (F := F) m).payload (cellB (ynb c)) 0 false
    = iprop(∃ f : Buf (Elt F) (rM.view.loc (c : Thread nD τ)), (rM.view.loc (c : Thread nD τ) ↦[rM.view.set]{fullShare} f)) := by
  rw [payload_bar]; unfold payBar; simp only [Bool.false_eq_true, if_false]
  exact congrArg (fun d => (SomeAt d rM : sProp 𝕄)) (ynb_ynb c)
theorem payload_bar_x (c : Dev nD) : (Rd (F := F) m).payload (cellB (xnb c)) 0 true
    = bigSep Finset.univ (fun k : Fin 32 => (iprop(∃ f : Buf (Elt F) ((oP (xnb c) k).view.loc (c : Thread nD τ)),
        ((oP (xnb c) k).view.loc (c : Thread nD τ) ↦[(oP (xnb c) k).view.set]{fullShare} f)) : sProp 𝕄)) := by
  rw [payload_bar]; unfold payBar; simp only [if_true]
  exact congrArg (fun d => bigSep Finset.univ fun k : Fin 32 => (SomeAt d (oP (xnb c) k) : sProp 𝕄)) (xnb_xnb c)

section Tagged
attribute [local sl_rounds] duties_bar amount_bar expect_bar rest_bar payload_bar_y payload_bar_x

theorem phaseBar (c : Dev nD) (W : Waits sig Unit) (Q : PUnit → sProp 𝕄) (ct : PG F) :
    iprop(Known m K c ∗ B0 c ∗ owes (c : Thread nD τ) (O₀ c) W
        ∗ ((∃ W' : Waits sig Unit, B1 c ∗ owes (c : Thread nD τ) (O1 c + O2 c) W') -∗ wp frame (wpE dfs 𝒱₀ (c : Thread nD τ) none) Set.univ ct Q))
      ⊢ wp frame (wpE dfs 𝒱₀ (c : Thread nD τ) none) Set.univ (progBar c ct) Q := by
  unfold Known B0 known pos crd O₀ SomeAt
  iintro ⟨⟨-, -, ⟨#HIb, #Hrb⟩, ⟨#HIy, #Hry⟩, ⟨#HIx, #Hrx⟩, #Hlev⟩, ⟨HatB, HtY, HtX, HcB, ⟨%fr, HrM⟩, HoP⟩, HO, Hk⟩
  have hmw : (levAts L lv : sProp 𝕄) ⊢ MayWait (c : Thread nD τ) (.reg barS) () (O1 c + O2 c) :=
    mayWait_of c (.reg barS) (O1 c + O2 c) (hops_above c (.reg barS) Finset.univ Finset.univ (show (1 : ℕ) < 2 by decide))
  sl_exec (disch := simp only [ynb_ynb, xnb_xnb])
  have e : bigSep (Finset.univ : Finset Bool) (fun d => (Rd (F := F) m).payload (cellB c) 0 d) = iprop(payBar (F := F) c false ∗ payBar c true) := by
    have h := rest_bar (F := F) m c
    rwa [duties_bar, Finset.sdiff_empty] at h
  ihave Hp := (Entails.of_eq e) $$ HatB_pay1
  unfold payBar
  simp only [Bool.false_eq_true, if_false, if_true]
  icases Hp with ⟨HrM, HoP⟩
  iapply Hk
  iexists (insert (SemLoc.reg barS, ()) W)
  unfold B1 pos
  iframe
end Tagged

def fromSlot (k : ℕ) : Finset (Fin 32) := Finset.univ.filter fun j => k ≤ j.val

theorem fromSlot_zero : fromSlot 0 = Finset.univ := by
  ext j; simp [fromSlot]
theorem fromSlot_32 : fromSlot 32 = ∅ := by
  ext j; simp [fromSlot]
theorem not_mem_fromSlot_succ (k : ℕ) (hk : k < 32) : (⟨k, hk⟩ : Fin 32) ∉ fromSlot (k + 1) := by
  simp [fromSlot]
theorem fromSlot_succ (k : ℕ) (hk : k < 32) : fromSlot k = insert (⟨k, hk⟩ : Fin 32) (fromSlot (k + 1)) := by
  ext j
  simp only [fromSlot, Finset.mem_filter, Finset.mem_univ, true_and, Finset.mem_insert, Fin.ext_iff]
  omega

theorem fromSlot_peel (Φ : Fin 32 → sProp 𝕄) (k : ℕ) (hk : k < 32) :
    bigSep (fromSlot k) Φ = iprop(Φ ⟨k, hk⟩ ∗ bigSep (fromSlot (k + 1)) Φ) := by
  rw [fromSlot_succ k hk]; exact bigSep_insert (not_mem_fromSlot_succ k hk)

-- along the recursion: if each slot's effects take the slot from A to B, the phase takes all remaining slots from A to B
theorem seqFrom_wp (c : Dev nD) (P : sProp 𝕄) [BI.Persistent P] (A B : Fin 32 → sProp 𝕄)
    (f : (k : ℕ) → k < 32 → PG F → PG F)
    (step : ∀ (k : Fin 32) (Q : PUnit → sProp 𝕄) (ct : PG F),
      iprop(P ∗ A k ∗ (B k -∗ wp frame (wpE dfs 𝒱₀ (c : Thread nD τ) none) Set.univ ct Q))
        ⊢ wp frame (wpE dfs 𝒱₀ (c : Thread nD τ) none) Set.univ (f k.val k.isLt ct) Q)
    (Q : PUnit → sProp 𝕄) (ct : PG F) :
    ∀ (n k : ℕ) (h : k + n = 32),
      iprop(P ∗ bigSep (fromSlot k) A ∗ (bigSep (fromSlot k) B -∗ wp frame (wpE dfs 𝒱₀ (c : Thread nD τ) none) Set.univ ct Q))
        ⊢ wp frame (wpE dfs 𝒱₀ (c : Thread nD τ) none) Set.univ (seqFrom f n k h ct) Q := by
  intro n
  induction n with
  | zero =>
    intro k h
    have hk : k = 32 := by omega
    subst hk
    rw [fromSlot_32]
    simp only [bigSep_empty]
    show _ ⊢ wp frame (wpE dfs 𝒱₀ (c : Thread nD τ) none) Set.univ ct Q
    iintro ⟨-, -, Hk⟩
    iapply Hk
    iempintro
  | succ n ih =>
    intro k h
    have hk : k < 32 := by omega
    rw [fromSlot_peel A k hk, fromSlot_peel B k hk]
    show _ ⊢ wp frame (wpE dfs 𝒱₀ (c : Thread nD τ) none) Set.univ (f k hk (seqFrom f n (k + 1) (by omega) ct)) Q
    iintro ⟨#HP, ⟨HAk, HA⟩, Hk⟩
    iapply (step ⟨k, hk⟩ Q _)
    iframe HP HAk
    iintro HBk
    iapply (ih (k + 1) _)
    iframe HP HA
    iintro HB
    iapply Hk
    iframe HBk HB

theorem slotKnown_of (c : Dev nD) (k : Fin 32) : Known m K c ⊢ slotKnown m K c k := by
  have e : (bigSep Finset.univ fun k : Fin 32 => slotKnown m K c k) ⊢ slotKnown m K c k := bigSep_elim (Finset.mem_univ k)
  unfold Known
  iintro ⟨Hs, -⟩
  iapply e
  iexact Hs

theorem gather_step (c : Dev nD) (k : Fin 32) (Q : PUnit → sProp 𝕄) (ct : PG F) :
    iprop(Known m K c ∗ S0 m c k ∗ (S1 c k -∗ wp frame (wpE dfs 𝒱₀ (c : Thread nD τ) none) Set.univ ct Q))
      ⊢ wp frame (wpE dfs 𝒱₀ (c : Thread nD τ) none) Set.univ (opGather c k ct) Q := by
  iintro ⟨#HK, HS, Hk⟩
  ihave #Hsk := (slotKnown_of m K c k) $$ HK
  unfold slotKnown known S0 Sinit SomeAt
  icases Hsk with ⟨⟨#HIg, #Hrg⟩, -⟩
  icases HS with ⟨⟨HpG, HpA, HpB, HpD, HpE, HpT, HtG, HtA, HtD, HtT, HtBy, HtEx, HcB, HcE, HX, ⟨%fd, Hsl⟩, HoP⟩, HrN, HoN⟩
  unfold XG
  iapply (Rounds.wp_copy_pointsTo 𝒱₀ ER (Rd m) (c : Thread nD τ) none (src := xG c k) (dst := slotAt sM k) (q := fullShare) (fs := X m c) (fd := fd)
      (κ := K (cell gS c k)) (r := 0) (d := false)
      (by rw [duties_g]; exact Finset.mem_singleton_self _) () N (amt_slot sM k _) (amount_g m c k 0 false)
      (by
        rw [payload_g]; unfold payG HoldsAt XG
        iintro ⟨Hd, Hsrc⟩
        isplitl [Hd]
        · iexists ((slotAt sM k).view.write (Elt F) fd ((xG c k).view.read (Elt F) (X m c)) Finset.univ)
          isplitr
          · ipureintro; exact View.read_write_univ (v := (slotAt sM k).view) (Val := Elt F) fd _
          · iexact Hd
        · iexact Hsrc)) $$ [HX Hsl HtG]
  · iframe HIg HX Hsl HtG Hrg
  iintro HcG
  iapply Hk
  unfold S1 SomeAt
  iframe HpG HpA HpB HpD HpE HpT HtA HtD HtT HtBy HtEx HcB HcE HcG HoP HrN HoN

theorem phaseB (c : Dev nD) (Q : PUnit → sProp 𝕄) (ct : PG F) :
    iprop(Known m K c ∗ (bigSep Finset.univ fun k : Fin 32 => S0 m c k)
        ∗ ((bigSep Finset.univ fun k : Fin 32 => S1 c k) -∗ wp frame (wpE dfs 𝒱₀ (c : Thread nD τ) none) Set.univ ct Q))
      ⊢ wp frame (wpE dfs 𝒱₀ (c : Thread nD τ) none) Set.univ (progB c ct) Q := by
  have h := seqFrom_wp (dfs := dfs) c (Known m K c) (fun k => S0 m c k) (fun k => S1 c k) (fun k hk ct => opGather c ⟨k, hk⟩ ct)
    (fun k Q ct => gather_step m K c k Q ct) Q ct 32 0 rfl
  rw [fromSlot_zero] at h
  exact h

end Cert.KernelIdeal.A2A

end
-- ==== Proof.PhaseC.lean ====
import proofs.«900033_g7700000000000034_dist_a2a_v7x_xy2x2_y_m4096_n1024_f32_1_alg».proof.Proof.PhaseAB
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {dfs : Defs nD τ sig (Elt F) Λ₀}

local notation "𝕄" => MT nD τ sig Unit (Elt F) ℕ UU ℕ

variable (m : (ℓ : Loc nD τ sig) → Buf (Elt F) ℓ) (K : GSem nD τ sig → ℕ)

namespace PhaseC

theorem recv_reads (c : Dev nD) (k : Fin 32)
    (fs : Buf (Elt F) ((slotAt sM k).view.loc (c : Thread nD τ))) (hfs : (slotAt sM k).view.read (Elt F) fs = Gv c k (X m c))
    (fd : Buf (Elt F) ((slotAt rM k).view.loc (ynb c : Thread nD τ))) :
    (slotAt rM k).view.read (Elt F) ((slotAt rM k).view.write (Elt F) fd ((slotAt sM k).view.read (Elt F) fs) Finset.univ) = Rv m (ynb c) k := by
  rw [View.read_write_univ, hfs]
  exact (congrArg (fun d => Gv d k (X m d)) (ynb_ynb c)).symm

section Tagged
attribute [local sl_rounds] duties_g amount_g expect_g payload_g rest_g duties_a amount_a expect_a payload_a rest_a
  duties_b amount_b expect_b payload_b rest_b amt_slot

set_option maxHeartbeats 1600000 in
theorem stepC (c : Dev nD) (k : Fin 32) (O : CellTallies nD τ sig Unit) (W : Waits sig Unit)
    (hO : ∀ (g : GSem nD τ sig) (u : Unit), 0 < (O + tallyAt (cell bS (ynb c) k) () N) g u → g.1.2 = .tc ∧ 0 < lv g ())
    (Q : PUnit → sProp 𝕄) (ct : PG F) :
    iprop(Known m K c ∗ S1 (F := F) c k ∗ owes (c : Thread nD τ) (O + tallyAt (cell bS (ynb c) k) () N) W
        ∗ ((S3 m c k ∗ owes (c : Thread nD τ) O (insert (SemLoc.dma (semAt gS k).sem, ()) W))
            -∗ wp frame (wpE dfs 𝒱₀ (c : Thread nD τ) none) Set.univ ct Q))
      ⊢ wp frame (wpE dfs 𝒱₀ (c : Thread nD τ) none) Set.univ (opWaitG c k (opSend1 c k ct)) Q := by
  unfold Known
  iintro ⟨⟨#Hsk, -, -, -, -, #Hlev⟩, HS, HO, Hk⟩
  ihave #Hs := (show bigSep Finset.univ (fun j : Fin 32 => slotKnown m K c j) ⊢ slotKnown m K c k from bigSep_elim (Finset.mem_univ k)) $$ Hsk
  unfold slotKnown known S1 pos tok crd
  icases Hs with ⟨⟨#HIg, #Hrg⟩, ⟨#HIa, #Hra⟩, -, -, -, -, ⟨#HIbN, #HrbN⟩, -⟩
  icases HS with ⟨Hpg, Hpa, Hpb, Hpd, Hpe, Hpt, Hta, Htd, Htt, HtbN, HteN, Hcb, Hce, Hcg, Ho, HrN, HoN⟩
  have hmw : (levAts L lv : sProp 𝕄) ⊢ MayWait (c : Thread nD τ) (.dma (semAt gS k).sem) () (O + tallyAt (cell bS (ynb c) k) () N) :=
    mayWait_of c _ _ (fun g u h => ⟨(hO g u h).1, by rw [lv_g]; exact (hO g u h).2⟩)
  sl_exec
  unfold payG HoldsAt
  icases Hpg_pay1 with ⟨⟨%fs, %hfs, Hs⟩, HX⟩
  unfold SomeAt
  icases HrN with ⟨%fd, Hd⟩
  iapply (Rounds.wp_send_pointsTo 𝒱₀ ER (Rd m) (c : Thread nD τ) none (c' := (Dev.tc (ynb c) : Thread nD τ))
      (src := slotAt sM k) (dst := slotAt rM k) (κ₁ := K (cell aS c k)) (κ₂ := K (cell bS (ynb c) k))
      (r₁ := 0) (r₂ := 0) (d₁ := false) (d₂ := false) (q := fullShare) (fs := fs) (fd := fd)
      (by rw [duties_a]; exact Finset.mem_singleton_self _) (by rw [duties_b]; exact Finset.mem_singleton_self _)
      () () N (amt_slot rM k (semAt bS k).sem) (amount_a m c k 0 false) (amount_b m (ynb c) k 0 false) O rfl
      (W := insert (SemLoc.dma (semAt gS k).sem, ()) W)
      (by rw [payload_a]; unfold payA HoldsAt; iintro H; iexists fs; isplitr; · ipureintro; exact hfs
          iexact H)
      (by rw [payload_b]; unfold payB HoldsAt; iintro H; iexists _; isplitr; · ipureintro; exact recv_reads m c k fs hfs fd
          iexact H)) $$ [Hs Hd HO Hta HtbN]
  · iframe HIa HIbN Hs Hd HO Hta Hra HtbN HrbN
  iintro ⟨Hca, HO⟩
  iapply Hk
  isplitr [HO]
  · unfold S3 SomeAt pos tok crd
    iframe Hpg Hpa Hpb Hpd Hpe Hpt Htd Htt HteN Hcb Hce Hca HX Ho HoN
  iexact HO
end Tagged

abbrev O1from (c : Dev nD) (k : ℕ) : CellTallies nD τ sig Unit := ∑ j ∈ fromSlot k, tallyAt (cell bS (ynb c) j) () N

theorem O1from_succ (c : Dev nD) (k : ℕ) (hk : k < 32) :
    O1from c k + O2 c = (O1from c (k + 1) + O2 c) + tallyAt (cell bS (ynb c) ⟨k, hk⟩) () N := by
  unfold O1from
  rw [fromSlot_succ k hk, Finset.sum_insert (not_mem_fromSlot_succ k hk), add_assoc, add_comm]

theorem owed_above (c : Dev nD) (S : Finset (Fin 32)) (g : GSem nD τ sig) (u : Unit)
    (h : 0 < ((∑ j ∈ S, tallyAt (cell bS (ynb c) j) () N : CellTallies nD τ sig Unit) + O2 c) g u) :
    g.1.2 = .tc ∧ 0 < lv g () := by
  rw [Pi.add_apply, Finsupp.add_apply] at h
  by_cases ha : 0 < (∑ j ∈ S, tallyAt (cell bS (ynb c) j) () N : CellTallies nD τ sig Unit) g u
  · obtain ⟨j, -, rfl⟩ := O1_pos S ha
    exact ⟨rfl, by rw [lv_b]; decide⟩
  · have hb : 0 < (O2 c) g u := by omega
    unfold O2 at hb
    obtain ⟨j, -, rfl⟩ := O2_pos Finset.univ hb
    exact ⟨rfl, by rw [lv_e]; decide⟩

theorem loopC (c : Dev nD) (Q : PUnit → sProp 𝕄) (ct : PG F) :
    ∀ (n k : ℕ) (h : k + n = 32) (W : Waits sig Unit),
    iprop(Known m K c ∗ (bigSep (fromSlot k) fun j : Fin 32 => S1 (F := F) c j) ∗ owes (c : Thread nD τ) (O1from c k + O2 c) W
        ∗ ((∃ W' : Waits sig Unit, (bigSep (fromSlot k) fun j : Fin 32 => S3 m c j) ∗ owes (c : Thread nD τ) (O2 c) W')
            -∗ wp frame (wpE dfs 𝒱₀ (c : Thread nD τ) none) Set.univ ct Q))
      ⊢ wp frame (wpE dfs 𝒱₀ (c : Thread nD τ) none) Set.univ
          (seqFrom (fun k hk ct => opWaitG c ⟨k, hk⟩ (opSend1 c ⟨k, hk⟩ ct)) n k h ct) Q := by
  intro n
  induction n with
  | zero =>
    intro k h W
    have hk : k = 32 := by omega
    subst hk
    show _ ⊢ wp frame (wpE dfs 𝒱₀ (c : Thread nD τ) none) Set.univ ct Q
    unfold O1from
    rw [fromSlot_32, Finset.sum_empty, zero_add, bigSep_empty, bigSep_empty]
    iintro ⟨-, -, HO, Hk⟩
    iapply Hk
    iexists W
    isplitr
    · iempintro
    iexact HO
  | succ n ih =>
    intro k h W
    have hk : k < 32 := by omega
    show _ ⊢ wp frame (wpE dfs 𝒱₀ (c : Thread nD τ) none) Set.univ
      (opWaitG c ⟨k, hk⟩ (opSend1 c ⟨k, hk⟩ (seqFrom (fun k hk ct => opWaitG c ⟨k, hk⟩ (opSend1 c ⟨k, hk⟩ ct)) n (k + 1) (by omega) ct))) Q
    rw [O1from_succ c k hk, fromSlot_peel (fun j : Fin 32 => S1 (F := F) c j) k hk, fromSlot_peel (fun j : Fin 32 => S3 m c j) k hk]
    iintro ⟨#HK, ⟨HS, HSs⟩, HO, Hk⟩
    iapply (stepC m K c ⟨k, hk⟩ (O1from c (k + 1) + O2 c) W
        (fun g u hg => owed_above c (fromSlot k) g u (by rw [show (∑ j ∈ fromSlot k, tallyAt (cell bS (ynb c) j) () N : CellTallies nD τ sig Unit) = O1from c k from rfl, O1from_succ c k hk]; exact hg)) Q _) $$ [HS HO Hk HSs]
    iframe HK HS HO
    iintro ⟨HS3, HO⟩
    iapply (ih (k + 1) _ (insert (SemLoc.dma (semAt gS ⟨k, hk⟩).sem, ()) W)) $$ [HSs HO Hk HS3]
    iframe HK HSs HO
    iintro ⟨%W', HS3s, HO⟩
    iapply Hk
    iexists W'
    iframe HS3 HS3s HO

end PhaseC

theorem phaseC (c : Dev nD) (W : Waits sig Unit) (Q : PUnit → sProp 𝕄) (ct : PG F) :
    iprop(Known m K c ∗ (bigSep Finset.univ fun k : Fin 32 => S1 (F := F) c k) ∗ owes (c : Thread nD τ) (O1 c + O2 c) W
        ∗ ((∃ W' : Waits sig Unit, (bigSep Finset.univ fun k : Fin 32 => S3 m c k) ∗ owes (c : Thread nD τ) (O2 c) W')
            -∗ wp frame (wpE dfs 𝒱₀ (c : Thread nD τ) none) Set.univ ct Q))
      ⊢ wp frame (wpE dfs 𝒱₀ (c : Thread nD τ) none) Set.univ (progC c ct) Q := by
  have h := PhaseC.loopC (dfs := dfs) m K c Q ct 32 0 rfl W
  unfold PhaseC.O1from at h
  rw [fromSlot_zero] at h
  exact h

end Cert.KernelIdeal.A2A

end
-- ==== Proof.Chunk.lean ====
import proofs.«900033_g7700000000000034_dist_a2a_v7x_xy2x2_y_m4096_n1024_f32_1_alg».proof.Proof.Sched
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {dfs : Defs nD τ sig (Elt F) Λ₀}

local notation "𝕄" => MT nD τ sig Unit (Elt F) ℕ UU ℕ

variable (m : (ℓ : Loc nD τ sig) → Buf (Elt F) ℓ) (K : GSem nD τ sig → ℕ)

abbrev sOf (j : ℕ) : Fin 2 := ⟨j % 2, Nat.mod_lt _ (by decide)⟩

def geF (r : ℕ) : Finset (Fin 4) := Finset.univ.filter (fun i => r ≤ i.val)
def ltF (r : ℕ) : Finset (Fin 4) := Finset.univ.filter (fun i => i.val + 1 < r)

theorem mem_geF {r : ℕ} {i : Fin 4} : i ∈ geF r ↔ r ≤ i.val := by
  simp only [geF, Finset.mem_filter, Finset.mem_univ, true_and]
theorem mem_ltF {r : ℕ} {i : Fin 4} : i ∈ ltF r ↔ i.val + 1 < r := by
  simp only [ltF, Finset.mem_filter, Finset.mem_univ, true_and]
theorem geF_zero : geF 0 = Finset.univ := by
  ext i; simp only [mem_geF, Finset.mem_univ, iff_true]; omega
theorem geF_four : geF 4 = ∅ := by
  ext i; have := i.isLt; simp only [mem_geF, Finset.notMem_empty, iff_false]; omega
theorem ltF_le_one (r : ℕ) (h : r ≤ 1) : ltF r = ∅ := by
  ext i; simp only [mem_ltF, Finset.notMem_empty, iff_false]; omega
theorem ltF_four : ltF 4 = Finset.univ.map Fin.castSuccEmb := by decide

theorem geF_peel (Φ : Fin 4 → sProp 𝕄) (r : ℕ) (hr : r < 4) :
    bigSep (geF r) Φ = iprop(Φ ⟨r, hr⟩ ∗ bigSep (geF (r + 1)) Φ) := by
  have e : geF r = insert (⟨r, hr⟩ : Fin 4) (geF (r + 1)) := by
    ext i; simp only [mem_geF, Finset.mem_insert, Fin.ext_iff]; omega
  have hn : (⟨r, hr⟩ : Fin 4) ∉ geF (r + 1) := by
    rw [mem_geF]; show ¬ (r + 1 ≤ r); omega
  rw [e]; exact bigSep_insert hn
theorem ltF_peel (Φ : Fin 4 → sProp 𝕄) (r : ℕ) (hr : r < 4) :
    bigSep (ltF (r + 1 + 1)) Φ = iprop(Φ ⟨r, hr⟩ ∗ bigSep (ltF (r + 1)) Φ) := by
  have e : ltF (r + 1 + 1) = insert (⟨r, hr⟩ : Fin 4) (ltF (r + 1)) := by
    ext i; simp only [mem_ltF, Finset.mem_insert, Fin.ext_iff]; omega
  have hn : (⟨r, hr⟩ : Fin 4) ∉ ltF (r + 1) := by
    rw [mem_ltF]; show ¬ (r + 1 < r + 1); omega
  rw [e]; exact bigSep_insert hn

theorem ch_cs (j : Fin 8) (h : j.val / 2 < 4) : chunkOf (cs j) (j.val / 2) h = j :=
  Fin.ext (by show 2 * (j.val / 2) + j.val % 2 = j.val; omega)

theorem payL_lo (c : Dev nD) (j : Fin 8) :
    payL m c (lsL j) (j.val / 2) = iprop(HoldsAt fullShare c (vSlot (cs j)) (Lv c j (X m c)) ∗ XL m c j) := by
  have hr : j.val / 2 < 4 := by have := j.isLt; omega
  have hj : (lsL j).val < 2 := Nat.mod_lt _ (by decide)
  have e : chunkOf (⟨(lsL j).val, hj⟩ : Fin 2) (j.val / 2) hr = j := ch_cs j hr
  unfold payL
  rw [dif_pos hr, dif_pos hj, e]

theorem payL_st (c : Dev nD) (j : Fin 8) :
    payL m c (lsS j) (j.val / 2) = iprop(HoldsAt fullShare c (oL c j) (Lv c j (X m c)) ∗ HoldsAt fullShare c (vSlot (cs j)) (Lv c j (X m c))) := by
  have hr : j.val / 2 < 4 := by have := j.isLt; omega
  have hj : ¬ (lsS j).val < 2 := by show ¬ (2 + j.val % 2 < 2); omega
  have e0 : (⟨(lsS j).val - 2, by show 2 + j.val % 2 - 2 < 2; omega⟩ : Fin 2) = cs j :=
    Fin.ext (by show 2 + j.val % 2 - 2 = j.val % 2; omega)
  unfold payL
  rw [dif_pos hr, dif_neg hj, e0, ch_cs j hr]

def VS (c : Dev nD) (s : Fin 2) (r : ℕ) : sProp 𝕄 :=
  iprop(pos (lo c s) r ∗ pos (st c s) (r - 1)
    ∗ (if r = 0 then (SomeAt c (vSlot s) : sProp 𝕄) else iprop(crd (st c s) NL ∗ reached ER (lo c s) r))
    ∗ (bigSep (geF r) fun i : Fin 4 => (iprop(tok (lo c s) i.val ∗ tok (st c s) i.val ∗ SomeAt c (oL c (ch s i))) : sProp 𝕄))
    ∗ (bigSep Finset.univ fun i : Fin 4 => XL m c (ch s i))
    ∗ (bigSep (ltF r) fun i : Fin 4 => (HoldsAt fullShare c (oL c (ch s i)) (Lv c (ch s i) (X m c)) : sProp 𝕄)))

theorem VS_zero (c : Dev nD) (s : Fin 2) : V0 m c s ⊢ VS m c s 0 := by
  unfold V0 VS
  rw [if_pos (rfl : (0 : ℕ) = 0), geF_zero, ltF_le_one 0 (by omega), bigSep_empty, bigSep_sep', bigSep_sep']
  iintro ⟨Hpl, Hps, Htl, Hts, Hv, HX, Ho⟩
  iframe Hpl Hps Hv Htl Hts Ho HX
  iempintro

theorem VS_four (c : Dev nD) (s : Fin 2) : VS m c s 4 ⊢ V1 m c s := by
  unfold VS V1
  rw [if_neg (by decide : ¬ ((4 : ℕ) = 0)), geF_four, bigSep_empty, ltF_four, bigSep_map]
  iintro ⟨Hpl, Hps, ⟨Hc, -⟩, -, HX, Ho⟩
  iframe Hpl Hps Hc HX
  iexact Ho

theorem knownL_of (c : Dev nD) (i : Fin 4) : Known m K c ⊢ known m K (cellL c i) := by
  have e : (bigSep Finset.univ fun j : Fin 4 => known m K (cellL c j)) ⊢ known m K (cellL c i) := bigSep_elim (Finset.mem_univ i)
  unfold Known
  iintro ⟨-, HL, -⟩
  iapply e
  iexact HL
theorem lev_of (c : Dev nD) : Known m K c ⊢ (levAts L lv : sProp 𝕄) := by
  unfold Known
  iintro ⟨-, -, -, -, -, H⟩
  iexact H

section Tagged
attribute [local sl_rounds] duties_L amount_L expect_L payload_L rest_L amt_vSlot amt_oL payL_lo payL_st

-- a chunk's store awaited: its rows of the result read the chunk, and the buffer slot is free again
theorem waitStore_step (c : Dev nD) (jp : Fin 8) (s : Fin 2) (r : ℕ) (hs : cs jp = s) (hr : jp.val / 2 = r)
    (O : CellTallies nD τ sig Unit) (W : Waits sig Unit)
    (hO : ∀ (g : GSem nD τ sig) (u : Unit), 0 < O g u → g.1.2 = .tc ∧ 0 < lv g ())
    (Q : PUnit → sProp 𝕄) (ct : PG F) :
    iprop(Known m K c ∗ pos (st c s) r ∗ crd (st c s) NL ∗ owes (c : Thread nD τ) O W
        ∗ ((∃ W' : Waits sig Unit, pos (st c s) (r + 1) ∗ reached ER (st c s) (r + 1)
              ∗ HoldsAt fullShare c (oL c jp) (Lv c jp (X m c)) ∗ SomeAt c (vSlot s) ∗ owes (c : Thread nD τ) O W')
            -∗ wp frame (wpE dfs 𝒱₀ (c : Thread nD τ) none) Set.univ ct Q))
      ⊢ wp frame (wpE dfs 𝒱₀ (c : Thread nD τ) none) Set.univ (opWaitStoreL c jp ct) Q := by
  subst hs; subst hr
  have hr4 : jp.val / 2 < 4 := by have := jp.isLt; omega
  iintro ⟨#HK, Hps, Hcs, HO, Hk⟩
  ihave #Hks := (knownL_of m K c (lsS jp)) $$ HK
  ihave #Hlev := (lev_of m K c) $$ HK
  unfold known
  icases Hks with ⟨#HIs, -⟩
  have hmw : (levAts L lv : sProp 𝕄) ⊢ MayWait (c : Thread nD τ) (SemLoc.dma (sem4At lS (lsS jp)).sem) () O :=
    mayWait_of c (SemLoc.dma (sem4At lS (lsS jp)).sem) _ (fun g u h => ⟨(hO g u h).1, by rw [lv_L]; exact (hO g u h).2⟩)
  unfold pos crd
  sl_exec
  iapply Hk
  iexists (insert (SemLoc.dma (sem4At lS (lsS jp)).sem, ()) W)
  iframe Hps Hps_reached Hps_pay1
  isplitl [Hps_pay2]
  · unfold HoldsAt SomeAt
    icases Hps_pay2 with ⟨%f, %hf, Hv⟩
    iexists f
    iexact Hv
  iexact HO

theorem body_step (c : Dev nD) (j : Fin 8) (s : Fin 2) (r : ℕ) (hs : cs j = s) (hr : j.val / 2 = r)
    (O : CellTallies nD τ sig Unit) (W : Waits sig Unit)
    (hO : ∀ (g : GSem nD τ sig) (u : Unit), 0 < O g u → g.1.2 = .tc ∧ 0 < lv g ())
    (Q : PUnit → sProp 𝕄) (ct : PG F) :
    iprop(Known m K c ∗ pos (lo c s) r ∗ reached ER (lo c s) r ∗ reached ER (st c s) r ∗ tok (lo c s) r ∗ tok (st c s) r
        ∗ XL m c j ∗ SomeAt c (vSlot s) ∗ SomeAt c (oL c j) ∗ owes (c : Thread nD τ) O W
        ∗ ((∃ W' : Waits sig Unit, pos (lo c s) (r + 1) ∗ reached ER (lo c s) (r + 1) ∗ crd (st c s) NL ∗ XL m c j
              ∗ owes (c : Thread nD τ) O W')
            -∗ wp frame (wpE dfs 𝒱₀ (c : Thread nD τ) none) Set.univ ct Q))
      ⊢ wp frame (wpE dfs 𝒱₀ (c : Thread nD τ) none) Set.univ (opLoad c j (opWaitLoad c j (opStoreL c j ct))) Q := by
  subst hs; subst hr
  have hr4 : j.val / 2 < 4 := by have := j.isLt; omega
  iintro ⟨#HK, Hpl, #Hrl, #Hrs, Htl, Hts, HX, Hv, Ho, HO, Hk⟩
  ihave #Hkl := (knownL_of m K c (lsL j)) $$ HK
  ihave #Hks := (knownL_of m K c (lsS j)) $$ HK
  ihave #Hlev := (lev_of m K c) $$ HK
  unfold known
  icases Hkl with ⟨#HIl, -⟩
  icases Hks with ⟨#HIs, -⟩
  unfold SomeAt XL
  icases Hv with ⟨%fv, Hv⟩
  icases Ho with ⟨%fo, Ho⟩
  iapply (Rounds.wp_copy_pointsTo 𝒱₀ ER (Rd m) (c : Thread nD τ) none (src := xL c j) (dst := vSlot (cs j))
      (sem := SemLoc.dma (sem4At lS (lsL j)).sem) (q := fullShare) (fs := X m c) (fd := fv) (r := j.val / 2) (d := false)
      (κ := K (cellL c (lsL j)))
      (by rw [duties_L m c (lsL j) _ hr4]; exact Finset.mem_singleton_self _) () NL
      (amt_vSlot (cs j) (sem4At lS (lsL j)).sem) (amount_L m c (lsL j) _ false)
      (by rw [payload_L, payL_lo]; unfold HoldsAt XL
          iintro ⟨Hd, Hs⟩
          isplitl [Hd]
          · iexists ((vSlot (cs j)).view.write (Elt F) fv ((xL c j).view.read (Elt F) (X m c)) Finset.univ)
            isplitr; · ipureintro; exact View.read_write_univ (v := (vSlot (cs j)).view) (Val := Elt F) fv _
            iexact Hd
          iexact Hs)) $$ [HX Hv Htl]
  · iframe HIl HX Hv Htl Hrl
  iintro Hcl
  have hmw : (levAts L lv : sProp 𝕄) ⊢ MayWait (c : Thread nD τ) (SemLoc.dma (sem4At lS (lsL j)).sem) () O :=
    mayWait_of c (SemLoc.dma (sem4At lS (lsL j)).sem) _ (fun g u h => ⟨(hO g u h).1, by rw [lv_L]; exact (hO g u h).2⟩)
  unfold pos crd
  sl_exec
  unfold HoldsAt XL
  icases Hpl_pay1 with ⟨%fs, %hfs, Hv⟩
  iapply (Rounds.wp_copy_pointsTo 𝒱₀ ER (Rd m) (c : Thread nD τ) none (src := vSlot (cs j)) (dst := oL c j)
      (sem := SemLoc.dma (sem4At lS (lsS j)).sem) (q := fullShare) (fs := fs) (fd := fo) (r := j.val / 2) (d := false)
      (κ := K (cellL c (lsS j)))
      (by rw [duties_L m c (lsS j) _ hr4]; exact Finset.mem_singleton_self _) () NL
      (amt_oL c j (sem4At lS (lsS j)).sem) (amount_L m c (lsS j) _ false)
      (by rw [payload_L, payL_st]; unfold HoldsAt
          iintro ⟨Hd, Hs⟩
          isplitl [Hd]
          · iexists ((oL c j).view.write (Elt F) fo ((vSlot (cs j)).view.read (Elt F) fs) Finset.univ)
            isplitr; · ipureintro; exact (View.read_write_univ (v := (oL c j).view) (Val := Elt F) fo _).trans hfs
            iexact Hd
          iexists fs
          isplitr; · ipureintro; exact hfs
          iexact Hs)) $$ [Hv Ho Hts]
  · iframe HIs Hv Ho Hts Hrs
  iintro Hcs
  iapply Hk
  iexists (insert (SemLoc.dma (sem4At lS (lsL j)).sem, ()) W)
  iframe Hpl Hpl_reached Hcs Hpl_pay2 HO

end Tagged

theorem chunk_step (c : Dev nD) (j : ℕ) (hj : j < 8) (O : CellTallies nD τ sig Unit) (W : Waits sig Unit)
    (hO : ∀ (g : GSem nD τ sig) (u : Unit), 0 < O g u → g.1.2 = .tc ∧ 0 < lv g ())
    (Q : PUnit → sProp 𝕄) (ct : PG F) :
    iprop(Known m K c ∗ VS m c (sOf j) (j / 2) ∗ owes (c : Thread nD τ) O W
        ∗ ((∃ W' : Waits sig Unit, VS m c (sOf j) (j / 2 + 1) ∗ owes (c : Thread nD τ) O W') -∗ wp frame (wpE dfs 𝒱₀ c none) Set.univ ct Q))
      ⊢ wp frame (wpE dfs 𝒱₀ c none) Set.univ (chunk c j hj ct) Q := by
  by_cases h2 : 2 ≤ j
  ·
    have hprog : chunk c j hj ct
        = opWaitStoreL c ⟨j - 2, by omega⟩ (opLoad c ⟨j, hj⟩ (opWaitLoad c ⟨j, hj⟩ (opStoreL c ⟨j, hj⟩ ct))) := by
      unfold chunk; exact dif_pos h2
    rw [hprog]
    obtain ⟨r, hr⟩ : ∃ r, j / 2 = r + 1 := ⟨j / 2 - 1, by omega⟩
    rw [hr]
    have hr4 : r + 1 < 4 := by omega
    have hr3 : r < 4 := by omega
    have hjp : j - 2 < 8 := by omega
    have hch : ch (sOf j) ⟨r + 1, hr4⟩ = (⟨j, hj⟩ : Fin 8) := Fin.ext (by show 2 * (r + 1) + j % 2 = j; omega)
    have hchp : ch (sOf j) ⟨r, hr3⟩ = (⟨j - 2, by omega⟩ : Fin 8) := Fin.ext (by show 2 * r + j % 2 = j - 2; omega)
    unfold VS
    rw [if_neg (by omega : ¬ (r + 1 = 0)), if_neg (by omega : ¬ (r + 1 + 1 = 0)), Nat.add_sub_cancel, Nat.add_sub_cancel,
      geF_peel _ (r + 1) hr4, bigSep_univ_at (fun i : Fin 4 => XL m c (ch (sOf j) i)) ⟨r + 1, hr4⟩, ltF_peel _ r hr3]
    iintro ⟨#HK, ⟨Hpl, Hps, ⟨Hcs, #Hrl⟩, ⟨⟨Htl, Hts, Ho⟩, Hge⟩, ⟨Hx, HX⟩, Hlt⟩, HO, Hk⟩
    iapply (waitStore_step m K c ⟨j - 2, hjp⟩ (sOf j) r (Fin.ext (by show (j - 2) % 2 = j % 2; omega))
      (by show (j - 2) / 2 = r; omega) O W hO)
    iframe HK Hps Hcs HO
    iintro ⟨%W1, Hps, #Hrs, Hop, Hv, HO⟩
    ihave Hop := (Entails.of_eq (congrArg (fun x : Fin 8 => (HoldsAt fullShare c (oL c x) (Lv c x (X m c)) : sProp 𝕄)) hchp.symm)) $$ Hop
    ihave Hx := (Entails.of_eq (congrArg (fun x : Fin 8 => XL m c x) hch)) $$ Hx
    ihave Ho := (Entails.of_eq (congrArg (fun x : Fin 8 => (SomeAt c (oL c x) : sProp 𝕄)) hch)) $$ Ho
    iapply (body_step m K c ⟨j, hj⟩ (sOf j) (r + 1) rfl hr O W1 hO)
    iframe HK Hpl Hrl Hrs Htl Hts Hx Hv Ho HO
    iintro ⟨%W2, Hpl, #Hrl2, Hcs, Hx, HO⟩
    ihave Hx := (Entails.of_eq (congrArg (fun x : Fin 8 => XL m c x) hch.symm)) $$ Hx
    iapply Hk
    iexists W2
    iframe Hpl Hps Hcs Hrl2 Hge Hx HX Hop Hlt HO
  ·
    have hprog : chunk c j hj ct = opLoad c ⟨j, hj⟩ (opWaitLoad c ⟨j, hj⟩ (opStoreL c ⟨j, hj⟩ ct)) := by
      unfold chunk; exact dif_neg h2
    rw [hprog]
    have hr : j / 2 = 0 := by omega
    rw [hr]
    have hch : ch (sOf j) ⟨0, by omega⟩ = (⟨j, hj⟩ : Fin 8) := Fin.ext (by show 2 * 0 + j % 2 = j; omega)
    unfold VS
    rw [if_pos (rfl : (0 : ℕ) = 0), if_neg (by omega : ¬ (0 + 1 = 0)), Nat.add_sub_cancel, Nat.zero_sub,
      geF_peel _ 0 (by omega), bigSep_univ_at (fun i : Fin 4 => XL m c (ch (sOf j) i)) ⟨0, by omega⟩,
      ltF_le_one 0 (by omega), ltF_le_one (0 + 1) (by omega)]
    iintro ⟨#HK, ⟨Hpl, Hps, Hv, ⟨⟨Htl, Hts, Ho⟩, Hge⟩, ⟨Hx, HX⟩, Hlt⟩, HO, Hk⟩
    ihave #Hkl := (knownL_of m K c (lsL ⟨j, hj⟩)) $$ HK
    ihave #Hks := (knownL_of m K c (lsS ⟨j, hj⟩)) $$ HK
    unfold known
    icases Hkl with ⟨-, #Hrl⟩
    icases Hks with ⟨-, #Hrs⟩
    ihave Hx := (Entails.of_eq (congrArg (fun x : Fin 8 => XL m c x) hch)) $$ Hx
    ihave Ho := (Entails.of_eq (congrArg (fun x : Fin 8 => (SomeAt c (oL c x) : sProp 𝕄)) hch)) $$ Ho
    iapply (body_step m K c ⟨j, hj⟩ (sOf j) 0 rfl hr O W hO)
    iframe HK Hpl Hrl Hrs Htl Hts Hx Hv Ho HO
    iintro ⟨%W2, Hpl, #Hrl2, Hcs, Hx, HO⟩
    ihave Hx := (Entails.of_eq (congrArg (fun x : Fin 8 => XL m c x) hch.symm)) $$ Hx
    iapply Hk
    iexists W2
    iframe Hpl Hps Hcs Hrl2 Hge Hx HX Hlt HO

end Cert.KernelIdeal.A2A

end
-- ==== Proof.PhaseD.lean ====
import proofs.«900033_g7700000000000034_dist_a2a_v7x_xy2x2_y_m4096_n1024_f32_1_alg».proof.Proof.Chunk
import proofs.«900033_g7700000000000034_dist_a2a_v7x_xy2x2_y_m4096_n1024_f32_1_alg».proof.Proof.PhaseAB
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {dfs : Defs nD τ sig (Elt F) Λ₀}

local notation "𝕄" => MT nD τ sig Unit (Elt F) ℕ UU ℕ

variable (m : (ℓ : Loc nD τ sig) → Buf (Elt F) ℓ) (K : GSem nD τ sig → ℕ)

theorem owed_add_e {c : Dev nD} {k : Fin 32} {O : CellTallies nD τ sig Unit}
    (hO : ∀ (g : GSem nD τ sig) (u : Unit), 0 < O g u → g.1.2 = .tc ∧ lv g () = 3) :
    ∀ (g : GSem nD τ sig) (u : Unit), 0 < (O + tallyAt (cell eS (xnb c) k) () N) g u → g.1.2 = .tc ∧ lv g () = 3 := by
  intro g u h
  rw [Pi.add_apply, Finsupp.add_apply] at h
  rcases Nat.pos_of_ne_zero (fun h0 => by omega) |> fun (_ : 0 < O g u + tallyAt (cell eS (xnb c) k) () N g u) => Nat.eq_zero_or_pos (O g u) with h0 | h0
  · rw [h0, Nat.zero_add] at h
    obtain ⟨hg, -⟩ := Pipeline.tallyAt_pos h
    subst hg
    exact ⟨rfl, lv_e (xnb c) k⟩
  · exact hO g u h0

section Slot
attribute [local sl_rounds] duties_b amount_b expect_b payload_b rest_b duties_d amount_d expect_d payload_d rest_d
  duties_e amount_e expect_e payload_e rest_e duties_t amount_t expect_t payload_t rest_t amt_slot amt_oP

theorem slotD_step (c : Dev nD) (k : Fin 32) (O : CellTallies nD τ sig Unit) (W : Waits sig Unit)
    (hO : ∀ (g : GSem nD τ sig) (u : Unit), 0 < O g u → g.1.2 = .tc ∧ lv g () = 3)
    (Q : PUnit → sProp 𝕄) (ct : PG F) :
    iprop(Known m K c ∗ S3 m c k ∗ owes (c : Thread nD τ) (O + tallyAt (cell eS (xnb c) k) () N) W
        ∗ ((∃ W' : Waits sig Unit, S6 m c k ∗ owes (c : Thread nD τ) O W') -∗ wp frame (wpE dfs 𝒱₀ c none) Set.univ ct Q))
      ⊢ wp frame (wpE dfs 𝒱₀ c none) Set.univ (slotD c k ct) Q := by
  iintro ⟨#HK, HS, HO, Hk⟩
  ihave #Hs := (slotKnown_of m K c k) $$ HK
  unfold Known slotKnown known S3 pos tok crd
  icases HK with ⟨-, -, -, -, -, #Hlev⟩
  icases HS with ⟨HpG, HpA, HpB, HpD, HpE, HpT, HtD, HtT, HtE, HcB, HcE, HcA, HXG, HoP, HoPx⟩
  icases Hs with ⟨⟨#IG, #RG⟩, ⟨#IA, #RA⟩, ⟨#IB, #RB⟩, ⟨#ID, #RD⟩, ⟨#IE, #RE⟩, ⟨#IT, #RT⟩, ⟨#IBy, #RBy⟩, ⟨#IEx, #REx⟩⟩
  have hmw : (levAts L lv : sProp 𝕄) ⊢ MayWait (c : Thread nD τ) (.dma (semAt bS k).sem) () (O + tallyAt (cell eS (xnb c) k) () N) :=
    mayWait_of c _ _ (fun g u h => by
      obtain ⟨h1, h2⟩ := owed_add_e (c := c) (k := k) hO g u h
      exact ⟨h1, by rw [h2]; exact (lv_b c k).trans_lt (by decide)⟩)
  sl_exec (disch := simp only [ynb_ynb, xnb_xnb])
  unfold payB HoldsAt
  icases HpB_pay1 with ⟨%fr, %hfr, Hr⟩
  ihave Hr2 := (pointsTo_share (PosShare.mem_left_op_right fullShare)).1 $$ Hr
  icases Hr2 with ⟨HrL, HrR⟩
  unfold SomeAt
  icases HoPx with ⟨%fx, HoPx⟩
  icases HoP with ⟨%fo, HoP⟩
  iapply (Rounds.wp_send_pointsTo 𝒱₀ ER (Rd m) (c : Thread nD τ) none (c' := ((xnb c : Dev nD) : Thread nD τ))
      (src := slotAt rM k) (dst := oP c k) (q := fullShare.left) (fs := fr) (fd := fx)
      (κ₁ := K (cell dS c k)) (κ₂ := K (cell eS (xnb c) k)) (r₁ := 0) (r₂ := 0) (d₁ := false) (d₂ := false)
      (by rw [duties_d]; exact Finset.mem_singleton_self _) (by rw [duties_e]; exact Finset.mem_singleton_self _)
      () () N (amt_oP c k _) (amount_d m c k 0 false) (amount_e m (xnb c) k 0 false) O rfl
      (W := insert (SemLoc.dma (semAt bS k).sem, ()) W)
      (by rw [payload_d]; unfold payD HoldsAt; iintro H; iexists fr; isplitr; · ipureintro; exact hfr
          iexact H)
      (by rw [payload_e]; unfold payE; rw [xnb_xnb]; unfold HoldsAt; iintro H
          iexists ((oP c k).view.write (Elt F) fx ((slotAt rM k).view.read (Elt F) fr) Finset.univ)
          isplitr; · ipureintro; rw [View.read_write_univ (v := (oP c k).view) (Val := Elt F) fx _]; exact hfr
          iexact H)) $$ [HrL HoPx HO HtD HtE]
  · iframe ID IEx HrL HoPx HO HtD RD HtE REx
  iintro ⟨HcD, HO⟩
  iapply (Rounds.wp_copy_pointsTo 𝒱₀ ER (Rd m) (c : Thread nD τ) none (src := slotAt rM k) (dst := oP c k) (q := fullShare.right) (fs := fr) (fd := fo)
      (κ := K (cell tS c k)) (r := 0) (d := false)
      (by rw [duties_t]; exact Finset.mem_singleton_self _) () N (amt_oP c k _) (amount_t m c k 0 false)
      (by rw [payload_t]; unfold payT HoldsAt; iintro ⟨Hd, Hs⟩
          isplitl [Hd]
          · iexists ((oP c k).view.write (Elt F) fo ((slotAt rM k).view.read (Elt F) fr) Finset.univ)
            isplitr; · ipureintro; rw [View.read_write_univ (v := (oP c k).view) (Val := Elt F) fo _]; exact hfr
            iexact Hd
          · iexists fr; isplitr; · ipureintro; exact hfr
            iexact Hs)) $$ [HrR HoP HtT]
  · iframe IT HrR HoP HtT RT
  iintro HcT
  iapply Hk
  iexists (insert (SemLoc.dma (semAt bS k).sem, ()) W)
  unfold S6
  iframe

end Slot

def uptoSlot (k : ℕ) : Finset (Fin 32) := Finset.univ.filter fun j => j.val < k

theorem uptoSlot_zero : uptoSlot 0 = ∅ := by
  ext j; simp [uptoSlot]
theorem uptoSlot_32 : uptoSlot 32 = Finset.univ := by
  ext j; simp [uptoSlot, j.isLt]
theorem uptoSlot_peel (Φ : Fin 32 → sProp 𝕄) (k : ℕ) (hk : k < 32) :
    bigSep (uptoSlot (k + 1)) Φ = iprop(Φ ⟨k, hk⟩ ∗ bigSep (uptoSlot k) Φ) := by
  have h1 : uptoSlot (k + 1) = insert (⟨k, hk⟩ : Fin 32) (uptoSlot k) := by
    ext j
    simp only [uptoSlot, Finset.mem_filter, Finset.mem_univ, true_and, Finset.mem_insert, Fin.ext_iff]
    omega
  have h2 : (⟨k, hk⟩ : Fin 32) ∉ uptoSlot k := by simp [uptoSlot]
  rw [h1]; exact bigSep_insert h2

def OD (c : Dev nD) (k : ℕ) : CellTallies nD τ sig Unit := ∑ i ∈ fromSlot k, tallyAt (cell eS (xnb c) i) () N

theorem OD_zero (c : Dev nD) : OD c 0 = O2 c := by
  unfold OD O2; rw [fromSlot_zero]
theorem OD_32 (c : Dev nD) : OD c 32 = 0 := by
  unfold OD; rw [fromSlot_32]; exact Finset.sum_empty
theorem OD_peel (c : Dev nD) (k : ℕ) (hk : k < 32) : OD c k = OD c (k + 1) + tallyAt (cell eS (xnb c) ⟨k, hk⟩) () N := by
  unfold OD; rw [fromSlot_succ k hk, Finset.sum_insert (not_mem_fromSlot_succ k hk), add_comm]
theorem OD_lv (c : Dev nD) (k : ℕ) : ∀ (g : GSem nD τ sig) (u : Unit), 0 < OD c k g u → g.1.2 = .tc ∧ lv g () = 3 := by
  intro g u h
  unfold OD at h
  obtain ⟨i, -, rfl⟩ := O2_pos (fromSlot k) h
  exact ⟨rfl, lv_e (xnb c) i⟩

def DS (c : Dev nD) (n : ℕ) (W : Waits sig Unit) : sProp 𝕄 :=
  iprop((bigSep (uptoSlot n) fun k => S6 m c k) ∗ (bigSep (fromSlot n) fun k => S3 m c k) ∗ owes (c : Thread nD τ) (OD c n) W)

theorem slot_at (c : Dev nD) (n n' : ℕ) (hn : n < 32) (hn' : n' = n + 1) (W : Waits sig Unit)
    (Q : PUnit → sProp 𝕄) (ct : PG F) :
    iprop(Known m K c ∗ DS m c n W
        ∗ ((∃ W' : Waits sig Unit, DS m c n' W') -∗ wp frame (wpE dfs 𝒱₀ c none) Set.univ ct Q))
      ⊢ wp frame (wpE dfs 𝒱₀ c none) Set.univ (slotD c ⟨n, hn⟩ ct) Q := by
  subst hn'
  unfold DS
  rw [fromSlot_peel (fun k => S3 m c k) n hn, uptoSlot_peel (fun k => S6 m c k) n hn, OD_peel c n hn]
  iintro ⟨#HK, ⟨Hdone, ⟨H3, Hrest⟩, HO⟩, Hk⟩
  iapply (slotD_step m K c ⟨n, hn⟩ (OD c (n + 1)) W (OD_lv c (n + 1)) Q ct)
  iframe HK H3 HO
  iintro ⟨%W', H6, HO⟩
  iapply Hk
  iexists W'
  iframe H6 Hdone Hrest HO

theorem dFrom_wp (c : Dev nD) (Q : PUnit → sProp 𝕄) (ct : PG F) :
    ∀ (n j : ℕ) (h : j + n = 8) (W : Waits sig Unit),
      iprop(Known m K c ∗ DS m c (4 * j) W ∗ VS m c (sOf j) (j / 2) ∗ VS m c (sOf (j + 1)) ((j + 1) / 2)
          ∗ ((∃ W' : Waits sig Unit, DS m c 32 W' ∗ VS m c (sOf 8) 4 ∗ VS m c (sOf 9) 4)
              -∗ wp frame (wpE dfs 𝒱₀ c none) Set.univ ct Q))
        ⊢ wp frame (wpE dfs 𝒱₀ c none) Set.univ (dFrom c n j h ct) Q := by
  intro n
  induction n with
  | zero =>
    intro j h W
    have hj : j = 8 := by omega
    subst hj
    rw [dFrom, dFromG]
    iintro ⟨-, HD, HV0, HV1, Hk⟩
    iapply Hk
    iexists W
    iframe HD HV0 HV1
  | succ n ih =>
    intro j h W
    have hj : j < 8 := by omega
    have e1 : sOf (j + 1 + 1) = sOf j := Fin.ext (by show (j + 1 + 1) % 2 = j % 2; omega)
    have e2 : (j + 1 + 1) / 2 = j / 2 + 1 := by omega
    rw [dFrom, dFromG]
    iintro ⟨#HK, HD, HV0, HV1, Hk⟩
    iapply (slot_at m K c (4 * j) (4 * j + 1) _ rfl W)
    iframe HK HD
    iintro ⟨%W1, HD⟩
    iapply (slot_at m K c (4 * j + 1) (4 * j + 2) _ rfl W1)
    iframe HK HD
    iintro ⟨%W2, HD⟩
    iapply (slot_at m K c (4 * j + 2) (4 * j + 3) _ rfl W2)
    iframe HK HD
    iintro ⟨%W3, HD⟩
    iapply (slot_at m K c (4 * j + 3) (4 * (j + 1)) _ (by omega) W3)
    iframe HK HD
    iintro ⟨%W4, HD⟩
    unfold DS
    icases HD with ⟨H6, H3, HO⟩
    iapply (chunk_step m K c j hj (OD c (4 * (j + 1))) W4
      (fun g u hg => ⟨(OD_lv c _ g u hg).1, by rw [(OD_lv c _ g u hg).2]; decide⟩))
    iframe HK HV0 HO
    iintro ⟨%W5, HV0, HO⟩
    iapply (ih (j + 1) _ W5)
    iframe HK
    isplitl [H6 H3 HO]
    · unfold DS
      iframe H6 H3 HO
    iframe HV1
    isplitl [HV0]; · rw [e1, e2]; iexact HV0
    iexact Hk

theorem phaseD (c : Dev nD) (W : Waits sig Unit) (Q : PUnit → sProp 𝕄) (ct : PG F) :
    iprop(Known m K c ∗ (bigSep Finset.univ fun k : Fin 32 => S3 m c k) ∗ V0 m c 0 ∗ V0 m c 1 ∗ owes (c : Thread nD τ) (O2 c) W
        ∗ ((∃ W' : Waits sig Unit, (bigSep Finset.univ fun k : Fin 32 => S6 m c k) ∗ V1 m c 0 ∗ V1 m c 1 ∗ owes (c : Thread nD τ) 0 W')
            -∗ wp frame (wpE dfs 𝒱₀ c none) Set.univ ct Q))
      ⊢ wp frame (wpE dfs 𝒱₀ c none) Set.univ (progD c ct) Q := by
  have hz0 : V0 m c 0 ⊢ VS m c (sOf 0) (0 / 2) := VS_zero m c 0
  have hz1 : V0 m c 1 ⊢ VS m c (sOf (0 + 1)) ((0 + 1) / 2) := VS_zero m c 1
  have hf0 : VS m c (sOf 8) 4 ⊢ V1 m c 0 := VS_four m c 0
  have hf1 : VS m c (sOf 9) 4 ⊢ V1 m c 1 := VS_four m c 1
  have hs : DS m c (4 * 0) W = iprop((bigSep Finset.univ fun k : Fin 32 => S3 m c k) ∗ owes (c : Thread nD τ) (O2 c) W) := by
    unfold DS
    rw [Nat.mul_zero, uptoSlot_zero, fromSlot_zero, OD_zero, bigSep_empty]
    exact equiv_iff.mp emp_sep
  have he : ∀ W', DS m c 32 W' = iprop((bigSep Finset.univ fun k : Fin 32 => S6 m c k) ∗ owes (c : Thread nD τ) 0 W') := by
    intro W'
    unfold DS
    rw [uptoSlot_32, fromSlot_32, OD_32, bigSep_empty]
    exact congrArg (BI.sep _) (equiv_iff.mp emp_sep)
  iintro ⟨#HK, H3, HV0, HV1, HO, Hk⟩
  iapply (dFrom_wp m K c Q ct 8 0 rfl W)
  iframe HK
  isplitl [H3 HO]
  · rw [hs]
    iframe H3 HO
  isplitl [HV0]; · iapply hz0; iexact HV0
  isplitl [HV1]; · iapply hz1; iexact HV1
  iintro ⟨%W', HD, HV0, HV1⟩
  ihave HD := (Entails.of_eq (he W')) $$ HD
  icases HD with ⟨H6, HO⟩
  iapply Hk
  iexists W'
  iframe H6
  isplitl [HV0]; · iapply hf0; iexact HV0
  isplitl [HV1]; · iapply hf1; iexact HV1
  iexact HO

end Cert.KernelIdeal.A2A

end
-- ==== Proof.PhaseE.lean ====
import proofs.«900033_g7700000000000034_dist_a2a_v7x_xy2x2_y_m4096_n1024_f32_1_alg».proof.Proof.PhaseAB
import proofs.«900033_g7700000000000034_dist_a2a_v7x_xy2x2_y_m4096_n1024_f32_1_alg».proof.Proof.Chunk
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {dfs : Defs nD τ sig (Elt F) Λ₀}

local notation "𝕄" => MT nD τ sig Unit (Elt F) ℕ UU ℕ

variable (m : (ℓ : Loc nD τ sig) → Buf (Elt F) ℓ) (K : GSem nD τ sig → ℕ)

attribute [local sl_rounds] duties_a duties_e duties_d duties_t duties_L amount_a amount_e amount_d amount_t amount_L
  expect_a expect_e expect_d expect_t expect_L payload_a payload_e payload_d payload_t payload_L
  rest_a rest_e rest_d rest_t rest_L amt_slot amt_oP amt_vSlot amt_oL

theorem bigSep_fin4_last (Φ : Fin 4 → sProp 𝕄) :
    iprop((bigSep Finset.univ fun r : Fin 3 => Φ (Fin.castSucc r)) ∗ Φ 3) ⊢ bigSep Finset.univ Φ := by
  have e4 : bigSep (Finset.univ : Finset (Fin 4)) Φ = iprop(Φ 0 ∗ Φ 1 ∗ Φ 2 ∗ Φ 3) := by
    rw [show (Finset.univ : Finset (Fin 4)) = {0, 1, 2, 3} from by decide, bigSep_insert (by decide), bigSep_insert (by decide),
      bigSep_insert (by decide), bigSep_singleton]
    rfl
  have e3 : (bigSep (Finset.univ : Finset (Fin 3)) fun r : Fin 3 => Φ (Fin.castSucc r)) = iprop(Φ 0 ∗ Φ 1 ∗ Φ 2) := by
    rw [show (Finset.univ : Finset (Fin 3)) = {0, 1, 2} from by decide, bigSep_insert (by decide), bigSep_insert (by decide), bigSep_singleton]
    rfl
  rw [e4, e3]
  iintro ⟨⟨H0, H1, H2⟩, H3⟩
  iframe H0 H1 H2 H3

theorem stepE0 (c : Dev nD) (s : Fin 2) (W : Waits sig Unit) (Q : PUnit → sProp 𝕄) (ct : PG F) :
    iprop(Known m K c ∗ V1 m c s ∗ owes (c : Thread nD τ) 0 W
        ∗ ((∃ W' : Waits sig Unit, V2 m c s ∗ owes (c : Thread nD τ) 0 W') -∗ wp frame (wpE dfs 𝒱₀ (c : Thread nD τ) none) Set.univ ct Q))
      ⊢ wp frame (wpE dfs 𝒱₀ (c : Thread nD τ) none) Set.univ (opWaitStoreL c (ch s 3) ct) Q := by
  unfold V1
  iintro ⟨#HK, ⟨Hlo, Hst, Hcr, HX, HH⟩, HO, Hk⟩
  iapply (waitStore_step m K c (ch s 3) s 3 (by fin_cases s <;> rfl) (by fin_cases s <;> rfl) 0 W (fun g u h => by simp at h) Q ct)
  iframe HK Hst Hcr HO
  iintro ⟨%W', Hst, -, Ho, Hv, HO⟩
  iapply Hk
  iexists W'
  unfold V2
  iframe HO Hlo HX Hv
  isplitl [Hst]; · iexact Hst
  iapply (bigSep_fin4_last (fun r : Fin 4 => HoldsAt fullShare c (oL c (ch s r)) (Lv c (ch s r) (X m c))))
  iframe HH Ho

theorem phaseE0 (c : Dev nD) (W : Waits sig Unit) (Q : PUnit → sProp 𝕄) (ct : PG F) :
    iprop(Known m K c ∗ V1 m c 0 ∗ V1 m c 1 ∗ owes (c : Thread nD τ) 0 W
        ∗ ((∃ W' : Waits sig Unit, V2 m c 0 ∗ V2 m c 1 ∗ owes (c : Thread nD τ) 0 W') -∗ wp frame (wpE dfs 𝒱₀ (c : Thread nD τ) none) Set.univ ct Q))
      ⊢ wp frame (wpE dfs 𝒱₀ (c : Thread nD τ) none) Set.univ (progE0 c ct) Q := by
  iintro ⟨#HK, HV0, HV1, HO, Hk⟩
  iapply (stepE0 m K c 0 W Q _)
  iframe HK HV0 HO
  iintro ⟨%W1, HV0, HO⟩
  iapply (stepE0 m K c 1 W1 Q _)
  iframe HK HV1 HO
  iintro ⟨%W2, HV1, HO⟩
  iapply Hk
  iexists W2
  iframe HV0 HV1 HO

set_option maxHeartbeats 1600000 in
theorem stepE (c : Dev nD) (k : Fin 32) (W : Waits sig Unit) (Q : PUnit → sProp 𝕄) (ct : PG F) :
    iprop(Known m K c ∗ S6 m c k ∗ owes (c : Thread nD τ) 0 W
        ∗ ((∃ W' : Waits sig Unit, S10 m c k ∗ owes (c : Thread nD τ) 0 W') -∗ wp frame (wpE dfs 𝒱₀ (c : Thread nD τ) none) Set.univ ct Q))
      ⊢ wp frame (wpE dfs 𝒱₀ (c : Thread nD τ) none) Set.univ (opWaitA c k (opWaitE c k (opWaitD c k (opWaitT c k ct)))) Q := by
  iintro ⟨#HK, HS, HO, Hk⟩
  ihave Hsk := (slotKnown_of m K c k) $$ HK
  unfold slotKnown known S6
  icases Hsk with ⟨-, ⟨#Ia, -⟩, -, ⟨#Id, -⟩, ⟨#Ie, -⟩, ⟨#It, -⟩, -⟩
  icases HS with ⟨Hpg, Hpa, Hpb, Hpd, Hpe, Hpt, Hce, Hca, Hcd, Hct, HX⟩
  unfold pos crd
  sl_exec
  unfold payA payE payD payT
  icases Hpt_pay1 with ⟨HTo, HTr⟩
  iapply Hk
  iexists _
  iframe HO
  unfold S10
  iframe Hpg Hpa Hpb Hpd Hpe Hpt HX Hpa_pay1 Hpd_pay1 HTr HTo Hpe_pay1

abbrev fE (c : Dev nD) : (k : ℕ) → k < 32 → PG F → PG F :=
  fun k hk ct => opWaitA c ⟨k, hk⟩ (opWaitE c ⟨k, hk⟩ (opWaitD c ⟨k, hk⟩ (opWaitT c ⟨k, hk⟩ ct)))

theorem phaseE_from (c : Dev nD) (Q : PUnit → sProp 𝕄) (ct : PG F) :
    ∀ (n k : ℕ) (h : k + n = 32) (W : Waits sig Unit),
      iprop(Known m K c ∗ (bigSep (fromSlot k) fun i : Fin 32 => S6 m c i) ∗ owes (c : Thread nD τ) 0 W
          ∗ ((∃ W' : Waits sig Unit, (bigSep (fromSlot k) fun i : Fin 32 => S10 m c i) ∗ owes (c : Thread nD τ) 0 W') -∗ wp frame (wpE dfs 𝒱₀ (c : Thread nD τ) none) Set.univ ct Q))
        ⊢ wp frame (wpE dfs 𝒱₀ (c : Thread nD τ) none) Set.univ (seqFrom (fE c) n k h ct) Q := by
  intro n
  induction n with
  | zero =>
    intro k h W
    have hk : k = 32 := by omega
    subst hk
    rw [fromSlot_32]
    simp only [bigSep_empty]
    show _ ⊢ wp frame (wpE dfs 𝒱₀ (c : Thread nD τ) none) Set.univ ct Q
    iintro ⟨-, -, HO, Hk⟩
    iapply Hk
    iexists W
    isplitr; · iempintro
    iexact HO
  | succ n ih =>
    intro k h W
    have hk : k < 32 := by omega
    rw [fromSlot_peel (fun i : Fin 32 => S6 m c i) k hk, fromSlot_peel (fun i : Fin 32 => S10 m c i) k hk]
    show _ ⊢ wp frame (wpE dfs 𝒱₀ (c : Thread nD τ) none) Set.univ (fE c k hk (seqFrom (fE c) n (k + 1) (by omega) ct)) Q
    iintro ⟨#HK, ⟨HS, Hrest⟩, HO, Hk⟩
    iapply (stepE m K c ⟨k, hk⟩ W Q _)
    iframe HK HS HO
    iintro ⟨%W1, HS10, HO⟩
    iapply (ih (k + 1) _ W1)
    iframe HK Hrest HO
    iintro ⟨%W2, Hrest, HO⟩
    iapply Hk
    iexists W2
    iframe HO HS10 Hrest

theorem phaseE (c : Dev nD) (W : Waits sig Unit) (Q : PUnit → sProp 𝕄) (ct : PG F) :
    iprop(Known m K c ∗ (bigSep Finset.univ fun k : Fin 32 => S6 m c k) ∗ owes (c : Thread nD τ) 0 W
        ∗ ((∃ W' : Waits sig Unit, (bigSep Finset.univ fun k : Fin 32 => S10 m c k) ∗ owes (c : Thread nD τ) 0 W') -∗ wp frame (wpE dfs 𝒱₀ (c : Thread nD τ) none) Set.univ ct Q))
      ⊢ wp frame (wpE dfs 𝒱₀ (c : Thread nD τ) none) Set.univ (progE c ct) Q := by
  have h := phaseE_from (dfs := dfs) m K c Q ct 32 0 rfl W
  rw [fromSlot_zero] at h
  exact h

end Cert.KernelIdeal.A2A

end
-- ==== Proof.Split.lean ====
import proofs.«900033_g7700000000000034_dist_a2a_v7x_xy2x2_y_m4096_n1024_f32_1_alg».proof.Proof.Proto
import Idealize.ShloMosaic.Rules.PointsTo
import Idealize.SL.ProofMode.BigOp

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem elt_nonempty (e : EltTy) : Nonempty (Elt F e) := by
  cases e
  case i1 => exact ⟨(0 : BitVec 1)⟩
  case i4 => exact ⟨(0 : BitVec 4)⟩
  case i8 => exact ⟨(0 : BitVec 8)⟩
  case i16 => exact ⟨(0 : BitVec 16)⟩
  case i32 => exact ⟨(0 : BitVec 32)⟩
  case i64 => exact ⟨(0 : BitVec 64)⟩
  case fp8e4m3 => exact ⟨FloatOps.ofBits .fp8e4m3 0⟩
  case fp8e5m2 => exact ⟨FloatOps.ofBits .fp8e5m2 0⟩
  case bf16 => exact ⟨FloatOps.ofBits .bf16 0⟩
  case f16 => exact ⟨FloatOps.ofBits .f16 0⟩
  case f32 => exact ⟨FloatOps.ofBits .f32 0⟩

theorem buf_nonempty (ℓ : Loc nD τ sig) : Nonempty (Buf (Elt F) ℓ) := ⟨fun _ => Classical.choice (elt_nonempty _)⟩

section Parts
variable {T : Type} [Fintype T] [DecidableEq T] (ℓ : Loc nD τ sig) (S : Finset (Idx ℓ)) (K : T → Finset (Idx ℓ))
  (hd : ∀ t t', t ≠ t' → Disjoint (K t) (K t')) (hcov : Finset.univ.biUnion K = S) (q : PosShare TreeShare)
include hd hcov

-- a region cut into pairwise disjoint parts is the separating conjunction of the parts
theorem parts_eq (f : Buf (Elt F) ℓ) :
    (ℓ ↦[S]{q} f : sProp 𝕄) = bigSep Finset.univ fun t => (ℓ ↦[K t]{q} f : sProp 𝕄) := by
  rw [← hcov]; exact pointsTo_biUnion _ _ (fun t _ t' _ h => hd t t' h)

theorem some_split :
    (iprop(∃ f : Buf (Elt F) ℓ, ℓ ↦[S]{q} f) : sProp 𝕄)
      ⊢ bigSep Finset.univ fun t => (iprop(∃ f : Buf (Elt F) ℓ, ℓ ↦[K t]{q} f) : sProp 𝕄) := by
  refine exists_elim fun f => ?_
  rw [parts_eq ℓ S K hd hcov q f]
  exact bigSep_mono fun t _ => exists_intro (Φ := fun f : Buf (Elt F) ℓ => (ℓ ↦[K t]{q} f : sProp 𝕄)) f

theorem parts_join (fs : T → Buf (Elt F) ℓ) :
    bigSep Finset.univ (fun t => (ℓ ↦[K t]{q} fs t : sProp 𝕄))
      ⊢ (iprop(∃ g : Buf (Elt F) ℓ, ⌜∀ t, ∀ i ∈ K t, g i = fs t i⌝ ∗ ℓ ↦[S]{q} g) : sProp 𝕄) := by
  have f₀ : Buf (Elt F) ℓ := Classical.choice (buf_nonempty ℓ)
  refine (pointsTo_biUnion_join Finset.univ K fs f₀ (fun t _ t' _ h => hd t t' h)).trans ?_
  rw [hcov]
  iintro ⟨%g, %hg, H⟩
  iexists g
  isplitr
  · ipureintro; exact fun t => hg t (Finset.mem_univ t)
  · iexact H

theorem some_join :
    bigSep Finset.univ (fun t => (iprop(∃ f : Buf (Elt F) ℓ, ℓ ↦[K t]{q} f) : sProp 𝕄))
      ⊢ (iprop(∃ f : Buf (Elt F) ℓ, ℓ ↦[S]{q} f) : sProp 𝕄) := by
  haveI : ∀ t : T, Nonempty (Buf (Elt F) ℓ) := fun _ => buf_nonempty ℓ
  refine (bigSep_exists_pi Finset.univ (fun (t : T) (f : Buf (Elt F) ℓ) => (ℓ ↦[K t]{q} f : sProp 𝕄))).trans ?_
  refine exists_elim fun fs => ?_
  refine (parts_join ℓ S K hd hcov q fs).trans ?_
  iintro ⟨%g, %hg, H⟩
  iexists g
  iexact H

end Parts

theorem holds_parts_join {T : Type} [Fintype T] [DecidableEq T] (ℓ : Loc nD τ sig) (S : Finset (Idx ℓ)) (K : T → Finset (Idx ℓ))
    (hd : ∀ t t', t ≠ t' → Disjoint (K t) (K t')) (hcov : Finset.univ.biUnion K = S) (q : PosShare TreeShare)
    (P : T → Buf (Elt F) ℓ → Prop) :
    bigSep Finset.univ (fun t => (iprop(∃ f : Buf (Elt F) ℓ, ⌜P t f⌝ ∗ ℓ ↦[K t]{q} f) : sProp 𝕄))
      ⊢ (iprop(∃ g : Buf (Elt F) ℓ, ⌜∀ t, ∃ f, P t f ∧ ∀ i ∈ K t, g i = f i⌝ ∗ ℓ ↦[S]{q} g) : sProp 𝕄) := by
  haveI : ∀ t : T, Nonempty (Buf (Elt F) ℓ) := fun _ => buf_nonempty ℓ
  refine (bigSep_exists_pi Finset.univ (fun (t : T) (f : Buf (Elt F) ℓ) => (iprop(⌜P t f⌝ ∗ ℓ ↦[K t]{q} f) : sProp 𝕄))).trans ?_
  refine exists_elim fun fs => ?_
  refine (bigSep_pure_sep Finset.univ (fun t => P t (fs t)) (fun t => (ℓ ↦[K t]{q} fs t : sProp 𝕄))).trans ?_
  iintro ⟨%hP, H⟩
  ihave H2 := (parts_join ℓ S K hd hcov q fs) $$ H
  icases H2 with ⟨%g, %hg, H⟩
  iexists g
  isplitr
  · ipureintro; exact fun t => ⟨fs t, hP t (Finset.mem_univ t), hg t⟩
  · iexact H

section Stage
variable (A : Memref sig .tc .vmem S32x64x1024 .f32)

theorem slot_set (k : Fin 32) : (slotAt A k).view.set
    = (Rect.unit (s := S32x64x1024) ![k.val, 0, 0] S1x64x1024.size (inbSlot k)).set.map A.view.emb := by
  exact (View.set_reshape (v := A.view.slice _) _).trans (View.set_slice (v := A.view) _)

theorem slot_disjoint (k k' : Fin 32) (h : k ≠ k') : Disjoint (slotAt A k).view.set (slotAt A k').view.set := by
  rw [slot_set, slot_set, Finset.disjoint_map]
  refine Rect.unit_disjoint (0 : Fin 3) ?_
  have := Fin.val_ne_of_ne h
  show k.val + 1 ≤ k'.val ∨ k'.val + 1 ≤ k.val
  omega

theorem slot_cover : Finset.univ.biUnion (fun k : Fin 32 => (slotAt A k).view.set) = A.view.set := by
  ext i
  rw [Finset.mem_biUnion]
  constructor
  · rintro ⟨k, -, hk⟩
    rw [slot_set, Finset.mem_map] at hk
    obtain ⟨x, -, rfl⟩ := hk
    exact A.view.emb_mem_set x
  · intro hi
    rw [View.set, Finset.mem_map] at hi
    obtain ⟨x, -, rfl⟩ := hi
    have h0 : (x 0).val < 32 := (x 0).isLt
    have h1 : (x 1).val < 64 := (x 1).isLt
    have h2 : (x 2).val < 1024 := (x 2).isLt
    refine ⟨⟨(x 0).val, h0⟩, Finset.mem_univ _, ?_⟩
    rw [slot_set]
    refine Finset.mem_map_of_mem _ ?_
    rw [Rect.mem_set_unit]
    intro a; fin_cases a
    · show (x 0).val ≤ (x 0).val ∧ (x 0).val < (x 0).val + 1; omega
    · show 0 ≤ (x 1).val ∧ (x 1).val < 0 + 64; omega
    · show 0 ≤ (x 2).val ∧ (x 2).val < 0 + 1024; omega

theorem stage_split (d : Dev nD) :
    SomeAt (F := F) d A ⊢ bigSep Finset.univ (fun k : Fin 32 => (SomeAt d (slotAt A k) : sProp 𝕄)) := by
  unfold SomeAt
  exact some_split (A.view.loc (d : Thread nD τ)) A.view.set (fun k => (slotAt A k).view.set) (slot_disjoint A) (slot_cover A) fullShare

theorem stage_join (d : Dev nD) :
    bigSep Finset.univ (fun k : Fin 32 => (SomeAt d (slotAt A k) : sProp 𝕄)) ⊢ SomeAt (F := F) d A := by
  unfold SomeAt
  exact some_join (A.view.loc (d : Thread nD τ)) A.view.set (fun k => (slotAt A k).view.set) (slot_disjoint A) (slot_cover A) fullShare

end Stage

theorem rM_split (d : Dev nD) : SomeAt (F := F) d rM ⊢ bigSep Finset.univ (fun k : Fin 32 => (SomeAt d (slotAt rM k) : sProp 𝕄)) := stage_split rM d
theorem rM_join (d : Dev nD) : bigSep Finset.univ (fun k : Fin 32 => (SomeAt d (slotAt rM k) : sProp 𝕄)) ⊢ SomeAt (F := F) d rM := stage_join rM d
theorem sM_split (d : Dev nD) : SomeAt (F := F) d sM ⊢ bigSep Finset.univ (fun k : Fin 32 => (SomeAt d (slotAt sM k) : sProp 𝕄)) := stage_split sM d
theorem sM_join (d : Dev nD) : bigSep Finset.univ (fun k : Fin 32 => (SomeAt d (slotAt sM k) : sProp 𝕄)) ⊢ SomeAt (F := F) d sM := stage_join sM d

theorem vSlot_set (s : Fin 2) : (vSlot s).view.set
    = (Rect.unit (s := S2x512x1024) ![s.val, 0, 0] S1x512x1024.size (inbV s)).set.map vM.view.emb := by
  exact (View.set_reshape (v := vM.view.slice _) _).trans (View.set_slice (v := vM.view) _)

theorem vSlot_disjoint (s s' : Fin 2) (h : s ≠ s') : Disjoint (vSlot s).view.set (vSlot s').view.set := by
  rw [vSlot_set, vSlot_set, Finset.disjoint_map]
  refine Rect.unit_disjoint (0 : Fin 3) ?_
  have := Fin.val_ne_of_ne h
  show s.val + 1 ≤ s'.val ∨ s'.val + 1 ≤ s.val
  omega

theorem vSlot_cover : Finset.univ.biUnion (fun s : Fin 2 => (vSlot s).view.set) = vM.view.set := by
  ext i
  rw [Finset.mem_biUnion]
  constructor
  · rintro ⟨k, -, hk⟩
    rw [vSlot_set, Finset.mem_map] at hk
    obtain ⟨x, -, rfl⟩ := hk
    exact vM.view.emb_mem_set x
  · intro hi
    rw [View.set, Finset.mem_map] at hi
    obtain ⟨x, -, rfl⟩ := hi
    have h0 : (x 0).val < 2 := (x 0).isLt
    have h1 : (x 1).val < 512 := (x 1).isLt
    have h2 : (x 2).val < 1024 := (x 2).isLt
    refine ⟨⟨(x 0).val, h0⟩, Finset.mem_univ _, ?_⟩
    rw [vSlot_set]
    refine Finset.mem_map_of_mem _ ?_
    rw [Rect.mem_set_unit]
    intro a; fin_cases a
    · show (x 0).val ≤ (x 0).val ∧ (x 0).val < (x 0).val + 1; omega
    · show 0 ≤ (x 1).val ∧ (x 1).val < 0 + 512; omega
    · show 0 ≤ (x 2).val ∧ (x 2).val < 0 + 1024; omega

theorem vM_split (d : Dev nD) : SomeAt (F := F) d vM ⊢ bigSep Finset.univ (fun s : Fin 2 => (SomeAt d (vSlot s) : sProp 𝕄)) := by
  unfold SomeAt
  exact some_split (vM.view.loc (d : Thread nD τ)) vM.view.set (fun s => (vSlot s).view.set) vSlot_disjoint vSlot_cover fullShare
theorem vM_join (d : Dev nD) : bigSep Finset.univ (fun s : Fin 2 => (SomeAt d (vSlot s) : sProp 𝕄)) ⊢ SomeAt (F := F) d vM := by
  unfold SomeAt
  exact some_join (vM.view.loc (d : Thread nD τ)) vM.view.set (fun s => (vSlot s).view.set) vSlot_disjoint vSlot_cover fullShare

section Halves
variable {sp : Space} {s : Shape} (M : Memref sig .tc sp s .f32)

theorem eq_on_set_of_read_eq (f g : M.view.ty.Contents (Elt F)) (h : M.view.read (Elt F) f = M.view.read (Elt F) g) :
    ∀ i ∈ M.view.set, f i = g i := by
  intro i hi
  rw [View.set, Finset.mem_map] at hi
  obtain ⟨x, -, rfl⟩ := hi
  have := congrFun h x
  simp only [View.read] at this
  exact (cast_inj _).mp this

theorem pt_halves (q : PosShare TreeShare) (d : Dev nD) (f : Buf (Elt F) (M.view.loc (d : Thread nD τ))) :
    (M.view.loc (d : Thread nD τ) ↦[M.view.set]{q} f : sProp 𝕄)
      ⊣⊢ iprop((M.view.loc (d : Thread nD τ) ↦[M.view.set]{q.left} f) ∗ (M.view.loc (d : Thread nD τ) ↦[M.view.set]{q.right} f)) :=
  pointsTo_share (PosShare.mem_left_op_right q)

theorem holds_join (q : PosShare TreeShare) (d : Dev nD) (V : s.Idx → Elt F .f32) :
    iprop(HoldsAt q.left d M V ∗ HoldsAt q.right d M V) ⊢ (HoldsAt q d M V : sProp 𝕄) := by
  unfold HoldsAt
  iintro ⟨⟨%f, %hf, Hl⟩, ⟨%g, %hg, Hr⟩⟩
  have e : (M.view.loc (d : Thread nD τ) ↦[M.view.set]{q.right} g : sProp 𝕄) = (M.view.loc (d : Thread nD τ) ↦[M.view.set]{q.right} f) :=
    pointsTo_congr (eq_on_set_of_read_eq M g f (hg.trans hf.symm))
  ihave Hr' := (Entails.of_eq e) $$ Hr
  iexists f; isplitr; · ipureintro; exact hf
  iapply (pt_halves M q d f).2
  isplitl [Hl]
  · iexact Hl
  · iexact Hr'

theorem holds_some (q : PosShare TreeShare) (d : Dev nD) (V : s.Idx → Elt F .f32) :
    (HoldsAt fullShare d M V : sProp 𝕄) ⊢ SomeAt d M := by
  unfold HoldsAt SomeAt
  iintro ⟨%f, %hf, H⟩
  iexists f; iexact H

end Halves

theorem half_join (d : Dev nD) (k : Fin 32) (V : S64x1024.Idx → Elt F .f32) :
    iprop(HoldsAt fullShare.left d (slotAt rM k) V ∗ HoldsAt fullShare.right d (slotAt rM k) V) ⊢ (SomeAt d (slotAt rM k) : sProp 𝕄) :=
  (holds_join (slotAt rM k) fullShare d V).trans (holds_some (slotAt rM k) fullShare d V)

theorem whole_unit_set (b : Ref sig .tc) (off size : Fin b.ty.shape.rank → ℕ) (inb : ∀ a, off a + size a ≤ b.ty.shape.size a) :
    ((Memref.whole b).slice (Rect.unit off size inb) (fun _ => rfl)).view.set = (Rect.unit off size inb).set :=
  View.set_slice_whole b _

theorem whole_unit_disjoint (b : Ref sig .tc) {off size off' size' : Fin b.ty.shape.rank → ℕ}
    {inb : ∀ a, off a + size a ≤ b.ty.shape.size a} {inb' : ∀ a, off' a + size' a ≤ b.ty.shape.size a}
    (a : Fin b.ty.shape.rank) (h : off a + size a ≤ off' a ∨ off' a + size' a ≤ off a) :
    Disjoint ((Memref.whole b).slice (Rect.unit off size inb) (fun _ => rfl)).view.set
      ((Memref.whole b).slice (Rect.unit off' size' inb') (fun _ => rfl)).view.set := by
  rw [whole_unit_set, whole_unit_set]; exact Rect.unit_disjoint a h

theorem mem_whole_unit (b : Ref sig .tc) {off size : Fin b.ty.shape.rank → ℕ} {inb : ∀ a, off a + size a ≤ b.ty.shape.size a}
    (i : b.ty.shape.Idx) :
    i ∈ ((Memref.whole b).slice (Rect.unit off size inb) (fun _ => rfl)).view.set ↔ ∀ a, off a ≤ i a ∧ (i a : ℕ) < off a + size a := by
  rw [whole_unit_set]; exact Rect.mem_set_unit

section XParts
variable (m : (ℓ : Loc nD τ sig) → Buf (Elt F) ℓ) (c : Dev nD)

def xK (c : Dev nD) : Fin 32 ⊕ Fin 8 → Finset (Idx ((c : Thread nD τ).loc main_arg0)) :=
  Sum.elim (fun k => (xG c k).view.set) (fun j => (xL c j).view.set)

theorem xK_disjoint : ∀ t t' : Fin 32 ⊕ Fin 8, t ≠ t' → Disjoint (xK c t) (xK c t')
  | .inl k, .inl k', h => by
    refine whole_unit_disjoint main_arg0 (0 : Fin 2) ?_
    rw [k0_off1_eq, k0_off1_eq]
    have : k.val ≠ k'.val := Fin.val_ne_of_ne fun e => h (congrArg _ e)
    show 2048 * (c.val / 2) + 64 * k.val + 64 ≤ 2048 * (c.val / 2) + 64 * k'.val ∨ 2048 * (c.val / 2) + 64 * k'.val + 64 ≤ 2048 * (c.val / 2) + 64 * k.val
    omega
  | .inl k, .inr j, _ => by
    refine whole_unit_disjoint main_arg0 (1 : Fin 2) ?_
    rw [k0_off1_eq, xLoff_eq]
    show 1024 - 1024 * (c.val % 2) + 1024 ≤ 1024 * (c.val % 2) ∨ 1024 * (c.val % 2) + 1024 ≤ 1024 - 1024 * (c.val % 2)
    omega
  | .inr j, .inl k, _ => by
    refine whole_unit_disjoint main_arg0 (1 : Fin 2) ?_
    rw [k0_off1_eq, xLoff_eq]
    show 1024 * (c.val % 2) + 1024 ≤ 1024 - 1024 * (c.val % 2) ∨ 1024 - 1024 * (c.val % 2) + 1024 ≤ 1024 * (c.val % 2)
    omega
  | .inr j, .inr j', h => by
    refine whole_unit_disjoint main_arg0 (0 : Fin 2) ?_
    rw [xLoff_eq, xLoff_eq]
    have : j.val ≠ j'.val := Fin.val_ne_of_ne fun e => h (congrArg _ e)
    show 512 * j.val + 512 ≤ 512 * j'.val ∨ 512 * j'.val + 512 ≤ 512 * j.val
    omega

def XRest : sProp 𝕄 :=
  (((c : Thread nD τ).loc main_arg0) ↦[Finset.univ \ Finset.univ.biUnion (xK c)]{fullShare} X m c)

theorem x_parts :
    (((c : Thread nD τ).loc main_arg0) ↦{fullShare} X m c : sProp 𝕄)
      ⊣⊢ iprop((bigSep Finset.univ fun k : Fin 32 => XG m c k) ∗ (bigSep Finset.univ fun j : Fin 8 => XL m c j) ∗ XRest m c) := by
  have e1 : (((c : Thread nD τ).loc main_arg0) ↦[Finset.univ]{fullShare} X m c : sProp 𝕄)
      ⊣⊢ iprop((((c : Thread nD τ).loc main_arg0) ↦[Finset.univ.biUnion (xK c)]{fullShare} X m c)
          ∗ (((c : Thread nD τ).loc main_arg0) ↦[Finset.univ \ Finset.univ.biUnion (xK c)]{fullShare} X m c)) :=
    pointsTo_split_subset (Finset.subset_univ _)
  have e2 : (((c : Thread nD τ).loc main_arg0) ↦[Finset.univ.biUnion (xK c)]{fullShare} X m c : sProp 𝕄)
      = iprop((bigSep Finset.univ fun k : Fin 32 => XG m c k) ∗ (bigSep Finset.univ fun j : Fin 8 => XL m c j)) := by
    rw [parts_eq _ _ (xK c) (xK_disjoint c) rfl fullShare (X m c), bigSep_univ_sum]
    rfl
  rw [e2] at e1
  exact ⟨e1.1.trans sep_assoc.1, sep_assoc.2.trans e1.2⟩

theorem x_split :
    (((c : Thread nD τ).loc main_arg0) ↦{fullShare} X m c : sProp 𝕄)
      ⊢ iprop((bigSep Finset.univ fun k : Fin 32 => XG m c k) ∗ (bigSep Finset.univ fun j : Fin 8 => XL m c j) ∗ XRest m c) :=
  (x_parts m c).1

theorem x_join :
    iprop((bigSep Finset.univ fun k : Fin 32 => XG m c k) ∗ (bigSep Finset.univ fun j : Fin 8 => XL m c j) ∗ XRest m c)
      ⊢ (((c : Thread nD τ).loc main_arg0) ↦{fullShare} X m c : sProp 𝕄) :=
  (x_parts m c).2

end XParts

theorem rows_PP (sv k k' : ℕ) (h : k ≠ k') :
    (2048 * (sv / 2) + 64 * k + 4096) - 4096 * (sv % 2) + 64 ≤ (2048 * (sv / 2) + 64 * k' + 4096) - 4096 * (sv % 2)
      ∨ (2048 * (sv / 2) + 64 * k' + 4096) - 4096 * (sv % 2) + 64 ≤ (2048 * (sv / 2) + 64 * k + 4096) - 4096 * (sv % 2) := by omega
theorem rows_PQ (cv xv k k' : ℕ) (hk : k < 32) (hk' : k' < 32) (hxd : xv / 2 + cv / 2 = 1) (hxm : xv % 2 = cv % 2) :
    (2048 * (cv / 2) + 64 * k + 4096) - 4096 * (cv % 2) + 64 ≤ (2048 * (xv / 2) + 64 * k' + 4096) - 4096 * (xv % 2)
      ∨ (2048 * (xv / 2) + 64 * k' + 4096) - 4096 * (xv % 2) + 64 ≤ (2048 * (cv / 2) + 64 * k + 4096) - 4096 * (cv % 2) := by omega
theorem rows_PL (cv sv k j : ℕ) (hs : sv < 4) (hk : k < 32) (hj : j < 8) (hsm : sv % 2 = cv % 2) :
    (2048 * (sv / 2) + 64 * k + 4096) - 4096 * (sv % 2) + 64 ≤ 4096 * (cv % 2) + 512 * j
      ∨ 4096 * (cv % 2) + 512 * j + 512 ≤ (2048 * (sv / 2) + 64 * k + 4096) - 4096 * (sv % 2) := by omega
theorem rows_LL (cv j j' : ℕ) (h : j ≠ j') :
    4096 * (cv % 2) + 512 * j + 512 ≤ 4096 * (cv % 2) + 512 * j' ∨ 4096 * (cv % 2) + 512 * j' + 512 ≤ 4096 * (cv % 2) + 512 * j := by omega
theorem rows_own (cv r : ℕ) (hr : r < 8192) (h1 : r / 4096 = cv % 2) :
    4096 * (cv % 2) + 512 * ((r % 4096) / 512) ≤ r ∧ r < 4096 * (cv % 2) + 512 * ((r % 4096) / 512) + 512 := by omega
theorem rows_other (sv r : ℕ) (hs : sv < 4) (hr : r < 8192) (h1 : ¬ r / 4096 = sv % 2) (h2 : (r % 4096) / 2048 = sv / 2) :
    (2048 * (sv / 2) + 64 * ((r % 2048) / 64) + 4096) - 4096 * (sv % 2) ≤ r
      ∧ r < (2048 * (sv / 2) + 64 * ((r % 2048) / 64) + 4096) - 4096 * (sv % 2) + 64 := by omega

theorem xnb_val_div (s : Dev nD) : (xnb s).val / 2 + s.val / 2 = 1 := by revert s; decide
theorem xnb_val_mod (s : Dev nD) : (xnb s).val % 2 = s.val % 2 := by revert s; decide

section OParts
variable (m : (ℓ : Loc nD τ sig) → Buf (Elt F) ℓ) (c : Dev nD)

def oK (c : Dev nD) : Fin 32 ⊕ (Fin 32 ⊕ Fin 8) → Finset (Idx ((c : Thread nD τ).loc main_v1)) :=
  Sum.elim (fun k => (oP c k).view.set) (Sum.elim (fun k => (oP (xnb c) k).view.set) (fun j => (oL c j).view.set))

theorem oK_disjoint : ∀ t t' : Fin 32 ⊕ (Fin 32 ⊕ Fin 8), t ≠ t' → Disjoint (oK c t) (oK c t')
  | .inl k, .inl k', h => by
    refine whole_unit_disjoint main_v1 (0 : Fin 2) ?_
    rw [k0_off2_eq, k0_off2_eq]
    exact rows_PP c.val k.val k'.val (Fin.val_ne_of_ne fun e => h (congrArg _ e))
  | .inl k, .inr (.inl k'), _ => by
    refine whole_unit_disjoint main_v1 (0 : Fin 2) ?_
    rw [k0_off2_eq, k0_off2_eq]
    exact rows_PQ c.val (xnb c).val k.val k'.val k.isLt k'.isLt (xnb_val_div c) (xnb_val_mod c)
  | .inl k, .inr (.inr j), _ => by
    refine whole_unit_disjoint main_v1 (0 : Fin 2) ?_
    rw [k0_off2_eq, k0_off4_eq]
    exact rows_PL c.val c.val k.val j.val c.isLt k.isLt j.isLt rfl
  | .inr (.inl k'), .inl k, _ => by
    refine whole_unit_disjoint main_v1 (0 : Fin 2) ?_
    rw [k0_off2_eq, k0_off2_eq]
    exact (rows_PQ c.val (xnb c).val k.val k'.val k.isLt k'.isLt (xnb_val_div c) (xnb_val_mod c)).symm
  | .inr (.inl k), .inr (.inl k'), h => by
    refine whole_unit_disjoint main_v1 (0 : Fin 2) ?_
    rw [k0_off2_eq, k0_off2_eq]
    exact rows_PP (xnb c).val k.val k'.val (Fin.val_ne_of_ne fun e => h (congrArg _ (congrArg _ e)))
  | .inr (.inl k), .inr (.inr j), _ => by
    refine whole_unit_disjoint main_v1 (0 : Fin 2) ?_
    rw [k0_off2_eq, k0_off4_eq]
    exact rows_PL c.val (xnb c).val k.val j.val (xnb c).isLt k.isLt j.isLt (xnb_val_mod c)
  | .inr (.inr j), .inl k, _ => by
    refine whole_unit_disjoint main_v1 (0 : Fin 2) ?_
    rw [k0_off2_eq, k0_off4_eq]
    exact (rows_PL c.val c.val k.val j.val c.isLt k.isLt j.isLt rfl).symm
  | .inr (.inr j), .inr (.inl k), _ => by
    refine whole_unit_disjoint main_v1 (0 : Fin 2) ?_
    rw [k0_off2_eq, k0_off4_eq]
    exact (rows_PL c.val (xnb c).val k.val j.val (xnb c).isLt k.isLt j.isLt (xnb_val_mod c)).symm
  | .inr (.inr j), .inr (.inr j'), h => by
    refine whole_unit_disjoint main_v1 (0 : Fin 2) ?_
    rw [k0_off4_eq, k0_off4_eq]
    exact rows_LL c.val j.val j'.val (Fin.val_ne_of_ne fun e => h (congrArg _ (congrArg _ e)))

theorem oK_cover : Finset.univ.biUnion (oK c) = Finset.univ := by
  ext i
  simp only [Finset.mem_biUnion, Finset.mem_univ, true_and, iff_true]
  have hr : (i 0).val < 8192 := (i 0).isLt
  have hcol : (i 1).val < 1024 := (i 1).isLt
  by_cases h1 : (i 0).val / 4096 = c.val % 2
  · have hj : ((i 0).val % 4096) / 512 < 8 := by omega
    refine ⟨.inr (.inr ⟨((i 0).val % 4096) / 512, hj⟩), ?_⟩
    refine (mem_whole_unit main_v1 i).mpr fun a => ?_
    rw [k0_off4_eq c ⟨((i 0).val % 4096) / 512, hj⟩]
    fin_cases a
    · exact rows_own c.val (i 0).val hr h1
    · show 0 ≤ (i 1).val ∧ (i 1).val < 0 + 1024; omega
  · have hk : ((i 0).val % 2048) / 64 < 32 := by omega
    by_cases h2 : ((i 0).val % 4096) / 2048 = c.val / 2
    · refine ⟨.inl ⟨((i 0).val % 2048) / 64, hk⟩, ?_⟩
      refine (mem_whole_unit main_v1 i).mpr fun a => ?_
      rw [k0_off2_eq c ⟨((i 0).val % 2048) / 64, hk⟩]
      fin_cases a
      · exact rows_other c.val (i 0).val c.isLt hr h1 h2
      · show 0 ≤ (i 1).val ∧ (i 1).val < 0 + 1024; omega
    · refine ⟨.inr (.inl ⟨((i 0).val % 2048) / 64, hk⟩), ?_⟩
      refine (mem_whole_unit main_v1 i).mpr fun a => ?_
      rw [k0_off2_eq (xnb c) ⟨((i 0).val % 2048) / 64, hk⟩]
      have key : ∀ xv : ℕ, xv / 2 + c.val / 2 = 1 → ((i 0).val % 4096) / 2048 = xv / 2 := by
        intro xv hxv; have hc : c.val < 4 := c.isLt; omega
      fin_cases a
      · exact rows_other (xnb c).val (i 0).val (xnb c).isLt hr (by rw [xnb_val_mod]; exact h1) (key _ (xnb_val_div c))
      · show 0 ≤ (i 1).val ∧ (i 1).val < 0 + 1024; omega

theorem some_intro {sp : Space} {s : Shape} (M : Memref sig .tc sp s .f32) (d : Dev nD) (f : Buf (Elt F) (M.view.loc (d : Thread nD τ))) :
    (M.view.loc (d : Thread nD τ) ↦[M.view.set]{fullShare} f : sProp 𝕄) ⊢ SomeAt d M := by
  unfold SomeAt
  exact exists_intro (Φ := fun f : Buf (Elt F) (M.view.loc (d : Thread nD τ)) => (M.view.loc (d : Thread nD τ) ↦[M.view.set]{fullShare} f : sProp 𝕄)) f

theorem o_split (V : Buf (Elt F) ((c : Thread nD τ).loc main_v1)) :
    (((c : Thread nD τ).loc main_v1) ↦{fullShare} V : sProp 𝕄)
      ⊢ iprop((bigSep Finset.univ fun k : Fin 32 => SomeAt c (oP c k)) ∗ (bigSep Finset.univ fun k : Fin 32 => SomeAt c (oP (xnb c) k))
          ∗ (bigSep Finset.univ fun j : Fin 8 => SomeAt c (oL c j))) := by
  rw [parts_eq _ _ (oK c) (oK_disjoint c) (oK_cover c) fullShare V, bigSep_univ_sum, bigSep_univ_sum]
  exact sep_mono (bigSep_mono fun k _ => some_intro (oP c k) c V)
    (sep_mono (bigSep_mono fun k _ => some_intro (oP (xnb c) k) c V) (bigSep_mono fun j _ => some_intro (oL c j) c V))

end OParts

section OJoin
variable (m : (ℓ : Loc nD τ sig) → Buf (Elt F) ℓ) (c : Dev nD)

def oWant : Fin 32 ⊕ (Fin 32 ⊕ Fin 8) → Buf (Elt F) ((c : Thread nD τ).loc main_v1) → Prop :=
  Sum.elim (fun k f => (oP c k).view.read (Elt F) f = Rv m c k)
    (Sum.elim (fun k f => (oP (xnb c) k).view.read (Elt F) f = Rv m (xnb c) k) (fun j f => (oL c j).view.read (Elt F) f = Lv c j (X m c)))

theorem o_join :
    iprop((bigSep Finset.univ fun k : Fin 32 => HoldsAt fullShare c (oP c k) (Rv m c k))
        ∗ (bigSep Finset.univ fun k : Fin 32 => HoldsAt fullShare c (oP (xnb c) k) (Rv m (xnb c) k))
        ∗ (bigSep Finset.univ fun j : Fin 8 => HoldsAt fullShare c (oL c j) (Lv c j (X m c))))
      ⊢ (iprop(∃ Fo : Buf (Elt F) ((c : Thread nD τ).loc main_v1), ⌜ResultOk (fun d => X m d) c Fo⌝ ∗ (((c : Thread nD τ).loc main_v1) ↦{fullShare} Fo)) : sProp 𝕄) := by
  have e : (iprop((bigSep Finset.univ fun k : Fin 32 => HoldsAt fullShare c (oP c k) (Rv m c k))
        ∗ (bigSep Finset.univ fun k : Fin 32 => HoldsAt fullShare c (oP (xnb c) k) (Rv m (xnb c) k))
        ∗ (bigSep Finset.univ fun j : Fin 8 => HoldsAt fullShare c (oL c j) (Lv c j (X m c)))) : sProp 𝕄)
      = bigSep Finset.univ (fun t : Fin 32 ⊕ (Fin 32 ⊕ Fin 8) =>
          (iprop(∃ f : Buf (Elt F) ((c : Thread nD τ).loc main_v1), ⌜oWant m c t f⌝ ∗ ((c : Thread nD τ).loc main_v1) ↦[oK c t]{fullShare} f) : sProp 𝕄)) := by
    rw [bigSep_univ_sum, bigSep_univ_sum]
    rfl
  rw [e]
  refine (holds_parts_join ((c : Thread nD τ).loc main_v1) Finset.univ (oK c) (oK_disjoint c) (oK_cover c) fullShare (oWant m c)).trans ?_
  iintro ⟨%g, %hg, H⟩
  iexists g
  isplitr
  · ipureintro
    refine ⟨fun k => ?_, fun k => ?_, fun j => ?_⟩
    · obtain ⟨f, hf, hgf⟩ := hg (.inl k)
      exact (View.read_congr (v := (oP c k).view) hgf).trans hf
    · obtain ⟨f, hf, hgf⟩ := hg (.inr (.inl k))
      exact (View.read_congr (v := (oP (xnb c) k).view) hgf).trans hf
    · obtain ⟨f, hf, hgf⟩ := hg (.inr (.inr j))
      exact (View.read_congr (v := (oL c j).view) hgf).trans hf
  · iexact H

end OJoin

end Cert.KernelIdeal.A2A

end
-- ==== Proof.Reindex.lean ====
import proofs.«900033_g7700000000000034_dist_a2a_v7x_xy2x2_y_m4096_n1024_f32_1_alg».proof.Proof.Sched
import Mathlib.Logic.Equiv.Fin.Basic

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem bigSep_fin_split {M : Type _} [URA M] (a b n : ℕ) (h : a + b = n) (Φ : Fin n → sProp M) :
    bigSep Finset.univ Φ
      = BI.sep (bigSep Finset.univ fun i : Fin a => Φ ⟨i.val, by have := i.isLt; omega⟩)
          (bigSep Finset.univ fun j : Fin b => Φ ⟨a + j.val, by have := j.isLt; omega⟩) := by
  subst h
  rw [bigSep_univ_equiv finSumFinEquiv Φ, bigSep_univ_sum]
  rfl

theorem bigSep_fin_split' {M : Type _} [URA M] (a b n : ℕ) (h : a + b = n) (Φ : Fin n → sProp M) (A : Fin a → sProp M) (B : Fin b → sProp M)
    (hA : ∀ i : Fin a, Φ ⟨i.val, by have := i.isLt; omega⟩ = A i) (hB : ∀ j : Fin b, Φ ⟨a + j.val, by have := j.isLt; omega⟩ = B j) :
    bigSep Finset.univ Φ = BI.sep (bigSep Finset.univ A) (bigSep Finset.univ B) := by
  rw [bigSep_fin_split a b n h Φ, bigSep_congr (fun i _ => hA i), bigSep_congr (fun j _ => hB j)]

theorem bigSep_fin196 {M : Type _} [URA M] (Φ : Fin 196 → sProp M) :
    bigSep Finset.univ Φ
      = iprop((bigSep Finset.univ fun k : Fin 32 => Φ ⟨k.val, by have := k.isLt; omega⟩)
        ∗ (bigSep Finset.univ fun k : Fin 32 => Φ ⟨32 + k.val, by have := k.isLt; omega⟩)
        ∗ (bigSep Finset.univ fun k : Fin 32 => Φ ⟨64 + k.val, by have := k.isLt; omega⟩)
        ∗ (bigSep Finset.univ fun k : Fin 32 => Φ ⟨96 + k.val, by have := k.isLt; omega⟩)
        ∗ (bigSep Finset.univ fun k : Fin 32 => Φ ⟨128 + k.val, by have := k.isLt; omega⟩)
        ∗ (bigSep Finset.univ fun k : Fin 32 => Φ ⟨160 + k.val, by have := k.isLt; omega⟩)
        ∗ (bigSep Finset.univ fun j : Fin 4 => Φ ⟨192 + j.val, by have := j.isLt; omega⟩)) := by
  have e : ∀ (x y : ℕ) (hx : x < 196) (hy : y < 196), x = y → Φ ⟨x, hx⟩ = Φ ⟨y, hy⟩ := by
    intro x y hx hy hxy; subst hxy; rfl
  rw [bigSep_fin_split' 32 164 196 rfl Φ _ (fun j : Fin 164 => Φ ⟨32 + j.val, by have := j.isLt; omega⟩) (fun _ => rfl) (fun _ => rfl)]
  rw [bigSep_fin_split' 32 132 164 rfl (fun j : Fin 164 => Φ ⟨32 + j.val, by have := j.isLt; omega⟩) _
    (fun j : Fin 132 => Φ ⟨64 + j.val, by have := j.isLt; omega⟩) (fun _ => rfl) (fun j => e _ _ _ _ (by simp only []; omega))]
  rw [bigSep_fin_split' 32 100 132 rfl (fun j : Fin 132 => Φ ⟨64 + j.val, by have := j.isLt; omega⟩) _
    (fun j : Fin 100 => Φ ⟨96 + j.val, by have := j.isLt; omega⟩) (fun _ => rfl) (fun j => e _ _ _ _ (by simp only []; omega))]
  rw [bigSep_fin_split' 32 68 100 rfl (fun j : Fin 100 => Φ ⟨96 + j.val, by have := j.isLt; omega⟩) _
    (fun j : Fin 68 => Φ ⟨128 + j.val, by have := j.isLt; omega⟩) (fun _ => rfl) (fun j => e _ _ _ _ (by simp only []; omega))]
  rw [bigSep_fin_split' 32 36 68 rfl (fun j : Fin 68 => Φ ⟨128 + j.val, by have := j.isLt; omega⟩) _
    (fun j : Fin 36 => Φ ⟨160 + j.val, by have := j.isLt; omega⟩) (fun _ => rfl) (fun j => e _ _ _ _ (by simp only []; omega))]
  rw [bigSep_fin_split' 32 4 36 rfl (fun j : Fin 36 => Φ ⟨160 + j.val, by have := j.isLt; omega⟩) _
    (fun j : Fin 4 => Φ ⟨192 + j.val, by have := j.isLt; omega⟩) (fun _ => rfl) (fun j => e _ _ _ _ (by simp only []; omega))]
  rfl

def chEquiv : Fin 2 × Fin 4 ≃ Fin 8 where
  toFun p := ch p.1 p.2
  invFun i := (⟨i.val % 2, by omega⟩, ⟨i.val / 2, by have := i.isLt; omega⟩)
  left_inv := by decide
  right_inv := by decide

theorem bigSep_fin8 {M : Type _} [URA M] (Φ : Fin 8 → sProp M) :
    bigSep Finset.univ Φ
      = iprop((bigSep Finset.univ fun r : Fin 4 => Φ (ch 0 r)) ∗ (bigSep Finset.univ fun r : Fin 4 => Φ (ch 1 r))) := by
  rw [bigSep_univ_equiv chEquiv Φ, bigSep_univ_prod, bigSep_fin_two]
  rfl

theorem cell_g (c : Dev nD) (k : Fin 32) :
    cell gS c k = ((c : Thread nD τ), SemLoc.dma (⟨k.val, by have := k.isLt; omega⟩ : Fin 196)) :=
  Prod.ext rfl (congrArg SemLoc.dma (Fin.ext (ix_g k)))
theorem cell_a (c : Dev nD) (k : Fin 32) :
    cell aS c k = ((c : Thread nD τ), SemLoc.dma (⟨32 + k.val, by have := k.isLt; omega⟩ : Fin 196)) :=
  Prod.ext rfl (congrArg SemLoc.dma (Fin.ext (ix_a k)))
theorem cell_b (c : Dev nD) (k : Fin 32) :
    cell bS c k = ((c : Thread nD τ), SemLoc.dma (⟨64 + k.val, by have := k.isLt; omega⟩ : Fin 196)) :=
  Prod.ext rfl (congrArg SemLoc.dma (Fin.ext (ix_b k)))
theorem cell_d (c : Dev nD) (k : Fin 32) :
    cell dS c k = ((c : Thread nD τ), SemLoc.dma (⟨96 + k.val, by have := k.isLt; omega⟩ : Fin 196)) :=
  Prod.ext rfl (congrArg SemLoc.dma (Fin.ext (ix_d k)))
theorem cell_e (c : Dev nD) (k : Fin 32) :
    cell eS c k = ((c : Thread nD τ), SemLoc.dma (⟨128 + k.val, by have := k.isLt; omega⟩ : Fin 196)) :=
  Prod.ext rfl (congrArg SemLoc.dma (Fin.ext (ix_e k)))
theorem cell_t (c : Dev nD) (k : Fin 32) :
    cell tS c k = ((c : Thread nD τ), SemLoc.dma (⟨160 + k.val, by have := k.isLt; omega⟩ : Fin 196)) :=
  Prod.ext rfl (congrArg SemLoc.dma (Fin.ext (ix_t k)))
theorem cellL_ix (c : Dev nD) (j : Fin 4) :
    cellL c j = ((c : Thread nD τ), SemLoc.dma (⟨192 + j.val, by have := j.isLt; omega⟩ : Fin 196)) :=
  Prod.ext rfl (congrArg SemLoc.dma (Fin.ext (ix_L j)))

theorem ownSems0_eq_cells (c : Dev nD) :
    (Pipeline.ownSems0 (Ix := Unit) (Name := ℕ) (U := UU) (Lvl := ℕ) (Val := Elt F) (τ := τ) (fun i : Fin 196 => SemLoc.dma i) c : sProp 𝕄)
      = iprop((bigSep Finset.univ fun k : Fin 32 => semVal (cell gS c k) 0) ∗ (bigSep Finset.univ fun k : Fin 32 => semVal (cell aS c k) 0)
        ∗ (bigSep Finset.univ fun k : Fin 32 => semVal (cell bS c k) 0) ∗ (bigSep Finset.univ fun k : Fin 32 => semVal (cell dS c k) 0)
        ∗ (bigSep Finset.univ fun k : Fin 32 => semVal (cell eS c k) 0) ∗ (bigSep Finset.univ fun k : Fin 32 => semVal (cell tS c k) 0)
        ∗ (bigSep Finset.univ fun j : Fin 4 => semVal (cellL c j) 0)) := by
  unfold Pipeline.ownSems0
  rw [bigSep_fin196]
  simp only [cell_g, cell_a, cell_b, cell_d, cell_e, cell_t, cellL_ix]

end Cert.KernelIdeal.A2A

end
-- ==== Proof.Cut.lean ====
import proofs.«900033_g7700000000000034_dist_a2a_v7x_xy2x2_y_m4096_n1024_f32_1_alg».proof.Proof.Body
import proofs.«900033_g7700000000000034_dist_a2a_v7x_xy2x2_y_m4096_n1024_f32_1_alg».proof.Proof.Split
import proofs.«900033_g7700000000000034_dist_a2a_v7x_xy2x2_y_m4096_n1024_f32_1_alg».proof.Proof.Reindex
import Idealize.SL.ProofMode.BigOp

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem fin8_split (Φ : Fin 8 → sProp 𝕄) :
    bigSep Finset.univ Φ ⊢ iprop((bigSep Finset.univ fun r : Fin 4 => Φ (ch 0 r)) ∗ (bigSep Finset.univ fun r : Fin 4 => Φ (ch 1 r))) :=
  Entails.of_eq (bigSep_fin8 Φ)
theorem fin8_join (Φ : Fin 8 → sProp 𝕄) :
    iprop((bigSep Finset.univ fun r : Fin 4 => Φ (ch 0 r)) ∗ (bigSep Finset.univ fun r : Fin 4 => Φ (ch 1 r))) ⊢ bigSep Finset.univ Φ :=
  Entails.of_eq (bigSep_fin8 Φ).symm

theorem s0_intro (c : Dev nD) :
    iprop(SomeAt (ynb c) rM ∗ (bigSep Finset.univ fun k : Fin 32 => (SomeAt (xnb c) (oP c k) : sProp 𝕄)) ∗ (bigSep Finset.univ fun k : Fin 32 => Sinit m c k))
      ⊢ (bigSep Finset.univ fun k : Fin 32 => S0 m c k) := by
  unfold S0
  simp only [bigSep_sep']
  iintro ⟨Hr, Ho, Hs⟩
  ihave Hr := (rM_split (ynb c)) $$ Hr
  iframe

theorem cut_start (c : Dev nD) :
    iprop(Lin c ∗ Creds c ∗ ArrIn m c ∗ Scratch c)
      ⊢ iprop(B0 c ∗ (bigSep Finset.univ fun k : Fin 32 => Sinit m c k) ∗ V0 m c 0 ∗ V0 m c 1 ∗ XRest m c) := by
  unfold Lin Creds ArrIn Scratch B0
  simp only [bigSep_univ_two]
  unfold VLin V0 Sinit SlotLin
  simp only [bigSep_sep']
  iintro ⟨⟨⟨HpB, HtY, HtX⟩, ⟨Hp1, Hp2, Hp3, Hp4, Hp5, Hp6, Ht1, Ht2, Ht3, Ht4, Ht5, Ht6⟩, ⟨Hl0, Hs0, Htl0, Hts0⟩, ⟨Hl1, Hs1, Htl1, Hts1⟩⟩,
    ⟨HcB, HCb, HCe⟩, ⟨Hx, ⟨%V, Ho⟩⟩, ⟨HsM, HrM, HvM⟩⟩
  ihave Hx := (x_split m c) $$ Hx
  icases Hx with ⟨HXG, HXL, HXR⟩
  ihave HXL := (fin8_split (fun j => XL m c j)) $$ HXL
  icases HXL with ⟨HXL0, HXL1⟩
  ihave Ho := (o_split c V) $$ Ho
  icases Ho with ⟨HoP, HoQ, HoL⟩
  ihave HoL := (fin8_split (fun j => (SomeAt c (oL c j) : sProp 𝕄))) $$ HoL
  icases HoL with ⟨HoL0, HoL1⟩
  ihave HsM := (sM_split c) $$ HsM
  ihave HvM := (vM_split c) $$ HvM
  ihave HvM := (Entails.of_eq (bigSep_univ_two (fun s : Fin 2 => (SomeAt c (vSlot s) : sProp 𝕄)))) $$ HvM
  icases HvM with ⟨Hv0, Hv1⟩
  iframe

theorem sends_some (c : Dev nD) :
    (bigSep Finset.univ fun k : Fin 32 => HoldsAt fullShare c (slotAt sM k) (Gv c k (X m c))) ⊢ (SomeAt c sM : sProp 𝕄) :=
  (bigSep_mono fun k _ => holds_some (slotAt sM k) fullShare c (Gv c k (X m c))).trans (sM_join c)

theorem recvs_some (c : Dev nD) :
    iprop((bigSep Finset.univ fun k : Fin 32 => HoldsAt fullShare.left c (slotAt rM k) (Rv m c k))
        ∗ (bigSep Finset.univ fun k : Fin 32 => HoldsAt fullShare.right c (slotAt rM k) (Rv m c k))) ⊢ (SomeAt c rM : sProp 𝕄) := by
  rw [← bigSep_sep' Finset.univ (fun k : Fin 32 => HoldsAt fullShare.left c (slotAt rM k) (Rv m c k))
    (fun k : Fin 32 => HoldsAt fullShare.right c (slotAt rM k) (Rv m c k))]
  exact (bigSep_mono fun k _ => half_join c k (Rv m c k)).trans (rM_join c)

theorem bufs_some (c : Dev nD) : iprop(SomeAt c (vSlot 0) ∗ SomeAt c (vSlot 1)) ⊢ (SomeAt c vM : sProp 𝕄) :=
  (Entails.of_eq (bigSep_univ_two (fun s : Fin 2 => (SomeAt c (vSlot s) : sProp 𝕄))).symm).trans (vM_join c)

theorem glue_end (c : Dev nD) :
    iprop((bigSep Finset.univ fun k : Fin 32 => S10 m c k) ∗ V2 m c 0 ∗ V2 m c 1 ∗ XRest m c)
      ⊢ iprop(ArrOut m c ∗ Scratch c
        ∗ (bigSep Finset.univ fun k : Fin 32 => iprop(pos (cell gS c k) 1 ∗ pos (cell aS c k) 1 ∗ pos (cell bS c k) 1 ∗ pos (cell dS c k) 1 ∗ pos (cell eS c k) 1 ∗ pos (cell tS c k) 1))
        ∗ (bigSep Finset.univ fun s : Fin 2 => iprop(pos (lo c s) 4 ∗ pos (st c s) 4))) := by
  unfold S10 V2 ArrOut Scratch
  simp only [bigSep_sep', bigSep_univ_two]
  iintro ⟨⟨Hp1, Hp2, Hp3, Hp4, Hp5, Hp6, HXG, HsM, HrL, HrR, HoP, HoQ⟩, ⟨Hl0, Hs0, HXL0, HoL0, Hv0⟩, ⟨Hl1, Hs1, HXL1, HoL1, Hv1⟩, HXR⟩
  ihave HXL := (fin8_join (fun j => XL m c j)) $$ [HXL0 HXL1]
  · iframe
  ihave Hx := (x_join m c) $$ [HXG HXL HXR]
  · iframe
  ihave HsM := (sends_some m c) $$ HsM
  ihave HrM := (recvs_some m c) $$ [HrL HrR]
  · iframe
  ihave HvM := (bufs_some c) $$ [Hv0 Hv1]
  · iframe
  ihave HoL := (fin8_join (fun j => HoldsAt fullShare c (oL c j) (Lv c j (X m c)))) $$ [HoL0 HoL1]
  · iframe
  ihave Ho := (o_join m c) $$ [HoP HoQ HoL]
  · iframe
  iframe

end Cert.KernelIdeal.A2A

end
-- ==== Proof.Close.lean ====
import proofs.«900033_g7700000000000034_dist_a2a_v7x_xy2x2_y_m4096_n1024_f32_1_alg».proof.Proof.Sched
import proofs.«900033_g7700000000000034_dist_a2a_v7x_xy2x2_y_m4096_n1024_f32_1_alg».proof.Proof.Reindex
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : GSem nD τ sig → ℕ)

theorem close_one (g : GSem nD τ sig) (R : ℕ) (hR : ∀ r, R ≤ r → (Rd (F := F) m).duties g r = ∅) :
    iprop(known m K g ∗ pos g R) ⊢ |={Set.univ}=> (semVal g 0 : sProp 𝕄) := by
  unfold known
  iintro ⟨⟨#HI, #Hr⟩, Hp⟩
  iapply (Rounds.cell_close ER (Rd m) (Set.mem_univ (K g)) (fun h => h) hR)
  isplitr
  · iexact HI
  · iexact Hp

theorem close_slot (c : Dev nD) (k : Fin 32) :
    iprop(slotKnown m K c k ∗ (pos (cell gS c k) 1 ∗ pos (cell aS c k) 1 ∗ pos (cell bS c k) 1 ∗ pos (cell dS c k) 1 ∗ pos (cell eS c k) 1 ∗ pos (cell tS c k) 1))
      ⊢ |={Set.univ}=> (iprop(semVal (cell gS c k) 0 ∗ semVal (cell aS c k) 0 ∗ semVal (cell bS c k) 0 ∗ semVal (cell dS c k) 0 ∗ semVal (cell eS c k) 0 ∗ semVal (cell tS c k) 0) : sProp 𝕄) := by
  unfold slotKnown
  iintro ⟨⟨#Kg, #Ka, #Kb, #Kd, #Ke, #Kt, #Kb', #Ke'⟩, Pg, Pa, Pb, Pd, Pe, Pt⟩
  imod (close_one m K (cell gS c k) 1 (later_g m c k)) $$ [Pg] with Sg
  · iframe Kg Pg
  imod (close_one m K (cell aS c k) 1 (later_a m c k)) $$ [Pa] with Sa
  · iframe Ka Pa
  imod (close_one m K (cell bS c k) 1 (later_b m c k)) $$ [Pb] with Sb
  · iframe Kb Pb
  imod (close_one m K (cell dS c k) 1 (later_d m c k)) $$ [Pd] with Sd
  · iframe Kd Pd
  imod (close_one m K (cell eS c k) 1 (later_e m c k)) $$ [Pe] with Se
  · iframe Ke Pe
  imod (close_one m K (cell tS c k) 1 (later_t m c k)) $$ [Pt] with St
  · iframe Kt Pt
  imodintro
  iframe Sg Sa Sb Sd Se St

theorem bigSep_four (Ψ : Fin 4 → sProp 𝕄) :
    bigSep Finset.univ Ψ = bigSep Finset.univ (fun s : Fin 2 => iprop(Ψ ⟨s.val, by omega⟩ ∗ Ψ ⟨2 + s.val, by omega⟩)) := by
  rw [bigSep_univ_eq_bigSepL ([0, 1, 2, 3] : List (Fin 4)) (by decide) (by decide), bigSep_univ_two]
  simp only [bigSepL_cons_cons, bigSepL_singleton]
  show BI.sep (Ψ 0) (BI.sep (Ψ 1) (BI.sep (Ψ 2) (Ψ 3))) = BI.sep (BI.sep (Ψ 0) (Ψ 2)) (BI.sep (Ψ 1) (Ψ 3))
  ac_rfl

theorem close_pair (c : Dev nD) (s : Fin 2) :
    iprop((known m K (lo c s) ∗ known m K (st c s)) ∗ (pos (lo c s) 4 ∗ pos (st c s) 4))
      ⊢ |={Set.univ}=> (iprop(semVal (lo c s) 0 ∗ semVal (st c s) 0) : sProp 𝕄) := by
  iintro ⟨⟨#Kl, #Ks⟩, Pl, Ps⟩
  imod (close_one m K (lo c s) 4 (later_L m c _)) $$ [Pl] with Sl
  · iframe Kl Pl
  imod (close_one m K (st c s) 4 (later_L m c _)) $$ [Ps] with Ss
  · iframe Ks Ps
  imodintro
  iframe Sl Ss

theorem close_slots (c : Dev nD) :
    iprop((bigSep Finset.univ fun k : Fin 32 => slotKnown m K c k)
        ∗ (bigSep Finset.univ fun k : Fin 32 => iprop(pos (cell gS c k) 1 ∗ pos (cell aS c k) 1 ∗ pos (cell bS c k) 1 ∗ pos (cell dS c k) 1 ∗ pos (cell eS c k) 1 ∗ pos (cell tS c k) 1)))
      ⊢ |={Set.univ}=> (iprop((bigSep Finset.univ fun k : Fin 32 => semVal (cell gS c k) 0) ∗ (bigSep Finset.univ fun k : Fin 32 => semVal (cell aS c k) 0)
          ∗ (bigSep Finset.univ fun k : Fin 32 => semVal (cell bS c k) 0) ∗ (bigSep Finset.univ fun k : Fin 32 => semVal (cell dS c k) 0)
          ∗ (bigSep Finset.univ fun k : Fin 32 => semVal (cell eS c k) 0) ∗ (bigSep Finset.univ fun k : Fin 32 => semVal (cell tS c k) 0)) : sProp 𝕄) := by
  rw [← bigSep_sep']
  refine (bigSep_mono fun k _ => close_slot m K c k).trans ((bigSep_fupd _ _).trans (fupd_mono ?_))
  rw [bigSep_sep', bigSep_sep', bigSep_sep', bigSep_sep', bigSep_sep']

theorem close_chunks (c : Dev nD) :
    iprop((bigSep Finset.univ fun j : Fin 4 => known m K (cellL c j)) ∗ (bigSep Finset.univ fun s : Fin 2 => iprop(pos (lo c s) 4 ∗ pos (st c s) 4)))
      ⊢ |={Set.univ}=> (bigSep Finset.univ fun j : Fin 4 => (semVal (cellL c j) 0 : sProp 𝕄)) := by
  rw [bigSep_four (fun j : Fin 4 => known m K (cellL c j)), bigSep_four (fun j : Fin 4 => (semVal (cellL c j) 0 : sProp 𝕄)), ← bigSep_sep']
  exact (bigSep_mono fun s _ => close_pair m K c s).trans (bigSep_fupd _ _)

theorem close_cells (c : Dev nD) : iprop(Known m K c ∗ (bigSep Finset.univ fun k : Fin 32 => iprop(pos (cell gS c k) 1 ∗ pos (cell aS c k) 1 ∗ pos (cell bS c k) 1 ∗ pos (cell dS c k) 1 ∗ pos (cell eS c k) 1 ∗ pos (cell tS c k) 1)) ∗ (bigSep Finset.univ fun s : Fin 2 => iprop(pos (lo c s) 4 ∗ pos (st c s) 4)))
      ⊢ |={Set.univ}=> iprop((bigSep Finset.univ fun k : Fin 32 => semVal (cell gS c k) 0) ∗ (bigSep Finset.univ fun k : Fin 32 => semVal (cell aS c k) 0) ∗ (bigSep Finset.univ fun k : Fin 32 => semVal (cell bS c k) 0) ∗ (bigSep Finset.univ fun k : Fin 32 => semVal (cell dS c k) 0) ∗ (bigSep Finset.univ fun k : Fin 32 => semVal (cell eS c k) 0) ∗ (bigSep Finset.univ fun k : Fin 32 => semVal (cell tS c k) 0) ∗ (bigSep Finset.univ fun j : Fin 4 => semVal (cellL c j) 0)) := by
  unfold Known
  iintro ⟨⟨#Hs, #Hl, #HB, #HBy, #HBx, #Hlev⟩, Hp, Hv⟩
  imod (close_slots m K c) $$ [Hp] with ⟨G, A, B, D, E, T⟩
  · iframe Hs Hp
  imod (close_chunks m K c) $$ [Hv] with Lq
  · iframe Hl Hv
  imodintro
  iframe G A B D E T Lq

theorem close_own (c : Dev nD) : iprop(Known m K c ∗ (bigSep Finset.univ fun k : Fin 32 => iprop(pos (cell gS c k) 1 ∗ pos (cell aS c k) 1 ∗ pos (cell bS c k) 1 ∗ pos (cell dS c k) 1 ∗ pos (cell eS c k) 1 ∗ pos (cell tS c k) 1)) ∗ (bigSep Finset.univ fun s : Fin 2 => iprop(pos (lo c s) 4 ∗ pos (st c s) 4)))
      ⊢ |={Set.univ}=> (Pipeline.ownSems0 (Ix := Unit) (Name := ℕ) (U := UU) (Lvl := ℕ) (Val := Elt F) (τ := τ) (fun i : Fin 196 => SemLoc.dma i) c : sProp 𝕄) :=
  (close_cells m K c).trans (fupd_mono (Entails.of_eq (ownSems0_eq_cells c).symm))

end Cert.KernelIdeal.A2A

end
-- ==== Proof.Bridge.lean ====
import proofs.«900033_g7700000000000034_dist_a2a_v7x_xy2x2_y_m4096_n1024_f32_1_alg».proof.Proof.Prog
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {dfs : Defs nD τ sig (Elt F) Λ₀}

local notation "𝕄" => MT nD τ sig Unit (Elt F) ℕ UU ℕ

def dY (c : Dev nD) : Dev nD := ⟨k0_dev3 c, k0_dev3_lt c⟩
def dX (c : Dev nD) : Dev nD := ⟨k0_dev35 c, k0_dev35_lt c⟩

-- every device chain of the body is one of two functions up to unfolding, and these name the two neighbours
theorem progAllG_eq (c : Dev nD) (ct : PG F) : progAllG c (dY c) (dX c) ct = progAll c ct := by
  rw [show dY c = ynb c from Fin.ext (k0_dev3_eq c), show dX c = xnb c from Fin.ext (k0_dev35_eq c)]

set_option maxHeartbeats 4000000 in
set_option maxRecDepth 65536 in
theorem bridge (c : Dev nD) (Q : PUnit → sProp 𝕄) :
    wp frame (wpE dfs 𝒱₀ c none) Set.univ (progAll c (Prog.ret PUnit.unit)) Q
      ⊢ wp frame (wpE dfs 𝒱₀ c none) Set.univ (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9) Q := by
  rw [← progAllG_eq]
  simp only [cc0_body_eq_skeleton, cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, k0_part58_eq_skeleton, k0_part58_skel, k0_part59_eq_skeleton, k0_part59_skel, k0_part60_eq_skeleton, k0_part60_skel, k0_part61_eq_skeleton, k0_part61_skel, k0_part62_eq_skeleton, k0_part62_skel, k0_part63_eq_skeleton, k0_part63_skel, k0_part64_eq_skeleton, k0_part64_skel, k0_part65_eq_skeleton, k0_part65_skel, k0_part66_eq_skeleton, k0_part66_skel, k0_part67_eq_skeleton, k0_part67_skel, k0_part68_eq_skeleton, k0_part68_skel, k0_part69_eq_skeleton, k0_part69_skel, k0_part70_eq_skeleton, k0_part70_skel, k0_part71_eq_skeleton, k0_part71_skel, k0_part72_eq_skeleton, k0_part72_skel, k0_part73_eq_skeleton, k0_part73_skel, k0_part74_eq_skeleton, k0_part74_skel, k0_part75_eq_skeleton, k0_part75_skel, k0_part76_eq_skeleton, k0_part76_skel, k0_part77_eq_skeleton, k0_part77_skel, k0_part78_eq_skeleton, k0_part78_skel, k0_part79_eq_skeleton, k0_part79_skel, k0_part80_eq_skeleton, k0_part80_skel, k0_part81_eq_skeleton, k0_part81_skel, k0_part82_eq_skeleton, k0_part82_skel, k0_part83_eq_skeleton, k0_part83_skel, k0_part84_eq_skeleton, k0_part84_skel, k0_part85_eq_skeleton, k0_part85_skel, k0_part86_eq_skeleton, k0_part86_skel, k0_part87_eq_skeleton, k0_part87_skel, k0_part88_eq_skeleton, k0_part88_skel, k0_part89_eq_skeleton, k0_part89_skel, k0_part90_eq_skeleton, k0_part90_skel, k0_part91_eq_skeleton, k0_part91_skel, k0_part92_eq_skeleton, k0_part92_skel, k0_part93_eq_skeleton, k0_part93_skel, k0_part94_eq_skeleton, k0_part94_skel, k0_part95_eq_skeleton, k0_part95_skel, k0_part96_eq_skeleton, k0_part96_skel, k0_part97_eq_skeleton, k0_part97_skel, k0_part98_eq_skeleton, k0_part98_skel, k0_part99_eq_skeleton, k0_part99_skel, k0_part100_eq_skeleton, k0_part100_skel, k0_part101_eq_skeleton, k0_part101_skel]
  simp only [semSignalWord, semWaitWord, Prog.lift, Prog.bind_op, Prog.bind_ret, Prog.pure_eq_ret, wp_deviceId]
  simp only [dev1_eq c, dev2_eq c]
  exact BI.Entails.refl _

end Cert.KernelIdeal.A2A

end
-- ==== Proof.BodyRun.lean ====
import proofs.«900033_g7700000000000034_dist_a2a_v7x_xy2x2_y_m4096_n1024_f32_1_alg».proof.Proof.Body
import proofs.«900033_g7700000000000034_dist_a2a_v7x_xy2x2_y_m4096_n1024_f32_1_alg».proof.Proof.PhaseAB
import proofs.«900033_g7700000000000034_dist_a2a_v7x_xy2x2_y_m4096_n1024_f32_1_alg».proof.Proof.PhaseC
import proofs.«900033_g7700000000000034_dist_a2a_v7x_xy2x2_y_m4096_n1024_f32_1_alg».proof.Proof.PhaseD
import proofs.«900033_g7700000000000034_dist_a2a_v7x_xy2x2_y_m4096_n1024_f32_1_alg».proof.Proof.PhaseE
import proofs.«900033_g7700000000000034_dist_a2a_v7x_xy2x2_y_m4096_n1024_f32_1_alg».proof.Proof.Cut
import proofs.«900033_g7700000000000034_dist_a2a_v7x_xy2x2_y_m4096_n1024_f32_1_alg».proof.Proof.Close
import proofs.«900033_g7700000000000034_dist_a2a_v7x_xy2x2_y_m4096_n1024_f32_1_alg».proof.Proof.Split
import proofs.«900033_g7700000000000034_dist_a2a_v7x_xy2x2_y_m4096_n1024_f32_1_alg».proof.Proof.Bridge
import proofs.«900033_g7700000000000034_dist_a2a_v7x_xy2x2_y_m4096_n1024_f32_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {dfs : Defs nD τ sig (Elt F) Λ₀}

local notation "𝕄" => MT nD τ sig Unit (Elt F) ℕ UU ℕ

variable (m : (ℓ : Loc nD τ sig) → Buf (Elt F) ℓ)

-- the six phases in order take what the launch hands a device to the final state, whatever the body table
theorem body_run (c : Dev nD) (W : Waits sig Unit) (Q : PUnit → sProp 𝕄) (ct : PG F) :
    iprop(Φ₀ m c ∗ owes (c : Thread nD τ) (O₀ c) W
        ∗ ((Φ₁ m c ∗ ∃ W' : Waits sig Unit, owes (c : Thread nD τ) 0 W') -∗ wp frame (wpE dfs 𝒱₀ (c : Thread nD τ) none) Set.univ ct Q))
      ⊢ wp frame (wpE dfs 𝒱₀ (c : Thread nD τ) none) Set.univ (progAll c ct) Q := by
  unfold Φ₀ Start
  iintro ⟨⟨⟨%K, #HK, HLin, HCr⟩, HArr, HScr⟩, HO, Hk⟩
  ihave Hcut := (cut_start m c) $$ [HLin HCr HArr HScr]
  · iframe HLin HCr HArr HScr
  icases Hcut with ⟨HB0, HSi, HV0, HV1, HXR⟩
  iapply (phaseBar m K c W Q _) $$ [HB0 HO HSi HV0 HV1 HXR Hk]
  iframe HK HB0 HO
  iintro ⟨%W1, HB1, HO⟩
  unfold B1
  icases HB1 with ⟨-, HrN, HoN⟩
  ihave HS0 := (s0_intro m c) $$ [HrN HoN HSi]
  · iframe HrN HoN HSi
  iapply (phaseB m K c Q _) $$ [HS0 HO HV0 HV1 HXR Hk]
  iframe HK HS0
  iintro HS1
  iapply (phaseC m K c W1 Q _) $$ [HS1 HO HV0 HV1 HXR Hk]
  iframe HK HS1 HO
  iintro ⟨%W2, HS3, HO⟩
  iapply (phaseD m K c W2 Q _) $$ [HS3 HV0 HV1 HO HXR Hk]
  iframe HK HS3 HV0 HV1 HO
  iintro ⟨%W3, HS6, HV0, HV1, HO⟩
  iapply (phaseE0 m K c W3 Q _) $$ [HV0 HV1 HO HS6 HXR Hk]
  iframe HK HV0 HV1 HO
  iintro ⟨%W4, HV0, HV1, HO⟩
  iapply (phaseE m K c W4 Q _) $$ [HS6 HO HV0 HV1 HXR Hk]
  iframe HK HS6 HO
  iintro ⟨%W5, HS10, HO⟩
  ihave Hend := (glue_end m c) $$ [HS10 HV0 HV1 HXR]
  · iframe HS10 HV0 HV1 HXR
  icases Hend with ⟨HAo, HSc, HP6, HP2⟩
  imod (close_own m K c) $$ [HP6 HP2] with Hown
  · iframe HK HP6 HP2
  iapply Hk
  unfold Φ₁
  iframe HAo HSc Hown
  iexists W5
  iexact HO

-- one thread's weakest precondition of a program, as one definition
def WP (dfs : Defs nD τ sig (Elt F) Λ₀) (c : Dev nD) (p : PG F) (Q : PUnit → sProp 𝕄) : sProp 𝕄 :=
  wp frame (wpE dfs 𝒱₀ (c : Thread nD τ) none) Set.univ p Q

-- the body obligation for any body table whose row at the pipeline's one point refines the phases
theorem body_obligation_of (dfs : Defs nD τ sig (Elt F) Λ₀) (c : Dev nD)
    (hprog : ∀ Q : PUnit → sProp 𝕄,
      WP dfs c (progAll c (Prog.ret ⟨⟩)) Q ⊢ WP dfs c (dfs .tc cfg0.body (cfg0.bodyArgs Gen.t0_0 (cfg0.slots Gen.t0_0))) Q) :
    BodyObligation (dats (F := F) m 0 c) dfs 𝒱₀ () Set.univ := by
  intro t
  obtain rfl := Gen.fin_N0 t
  have hW : (Finset.univ : Finset (Fin cfg0.W)) = ∅ := Finset.univ_eq_empty
  rw [hW, bigSep_empty, bigSep_empty]
  have e0 : (dats (F := F) m 0 c).Φ Gen.t0_0.castSucc = Φ₀ m c := rfl
  have e1 : (dats (F := F) m 0 c).Φ Gen.t0_0.succ = Φ₁ m c := rfl
  rw [e0, e1]
  unfold Dat.owesAt Pipeline.owesWithin
  have o0 : (dats (F := F) m 0 c).owed Gen.t0_0.castSucc = O₀ c := rfl
  have o1 : (dats (F := F) m 0 c).owed Gen.t0_0.succ = 0 := rfl
  rw [o0, o1]
  refine BIBase.Entails.trans ?_ (hprog _)
  unfold WP
  iintro ⟨HΦ, ⟨%W, %hWb, HO⟩, -⟩
  iapply (body_run m c W _ _) $$ [HΦ HO]
  iframe HΦ HO
  iintro ⟨HΦ1, %W', HO⟩
  rw [wp_ret]; imodintro
  iframe HΦ1
  isplitl [HO]
  · iexists W'
    isplitr; · ipureintro; exact fun _ _ => Or.inl trivial
    iexact HO
  iempintro

set_option maxRecDepth 65536 in
theorem body_obligation (c : Dev nD) : BodyObligation (dats (F := F) m 0 c) (defs₀ (F := F)) 𝒱₀ () Set.univ :=
  body_obligation_of m defs₀ c (fun Q => bridge c Q)

end Cert.KernelIdeal.A2A

end
-- ==== Proof.LaunchAux.lean ====
import proofs.«900033_g7700000000000034_dist_a2a_v7x_xy2x2_y_m4096_n1024_f32_1_alg».proof.Proof.Body

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem cred_O1 (c : Dev nD) :
    (Pipeline.launchCred O1 c : sProp 𝕄) ⊢ bigSep Finset.univ fun k : Fin 32 => (crd (cell bS c k) N : sProp 𝕄) := by
  show (Pipeline.launchCred (fun d => ∑ k ∈ (Finset.univ : Finset (Fin 32)), tallyAt (cell bS (ynb d) k) () N) c : sProp 𝕄) ⊢ _
  rw [Pipeline.launchCred_sum Finset.univ (fun (k : Fin 32) d => tallyAt (cell bS (ynb d) k) () N) c]
  exact bigSep_mono fun k _ => Pipeline.launchCred_tallyAt (.dma (semAt bS k).sem) ynb ynb ynb_ynb ynb_ynb () N c

theorem cred_O2 (c : Dev nD) :
    (Pipeline.launchCred O2 c : sProp 𝕄) ⊢ bigSep Finset.univ fun k : Fin 32 => (crd (cell eS c k) N : sProp 𝕄) := by
  show (Pipeline.launchCred (fun d => ∑ k ∈ (Finset.univ : Finset (Fin 32)), tallyAt (cell eS (xnb d) k) () N) c : sProp 𝕄) ⊢ _
  rw [Pipeline.launchCred_sum Finset.univ (fun (k : Fin 32) d => tallyAt (cell eS (xnb d) k) () N) c]
  exact bigSep_mono fun k _ => Pipeline.launchCred_tallyAt (.dma (semAt eS k).sem) xnb xnb xnb_xnb xnb_xnb () N c

theorem creds (c : Dev nD) : (Pipeline.launchCred O₀ c : sProp 𝕄) ⊢ Creds c := by
  have hx : (Pipeline.launchCred (fun d => tallyAt (cellB (xnb d)) () 1) c : sProp 𝕄) ⊢ crd (cellB c) 1 :=
    Pipeline.launchCred_tallyAt (.reg barS) xnb xnb xnb_xnb xnb_xnb () 1 c
  have hy : (Pipeline.launchCred (fun d => tallyAt (cellB (ynb d)) () 1) c : sProp 𝕄) ⊢ crd (cellB c) 1 :=
    Pipeline.launchCred_tallyAt (.reg barS) ynb ynb ynb_ynb ynb_ynb () 1 c
  have hb : iprop(crd (cellB c) 1 ∗ crd (cellB c) 1) ⊢ (crd (cellB c) 2 : sProp 𝕄) :=
    (cred_add _ _).2.trans (Entails.of_eq (congrArg cred (tallyAt_add (cellB c) () 1 1)))
  show (Pipeline.launchCred (fun d => ((O1 d + O2 d) + tallyAt (cellB (xnb d)) () 1) + tallyAt (cellB (ynb d)) () 1) c : sProp 𝕄) ⊢ _
  rw [Pipeline.launchCred_add (fun d => (O1 d + O2 d) + tallyAt (cellB (xnb d)) () 1) (fun d => tallyAt (cellB (ynb d)) () 1) c,
    Pipeline.launchCred_add (fun d => O1 d + O2 d) (fun d => tallyAt (cellB (xnb d)) () 1) c,
    Pipeline.launchCred_add O1 O2 c]
  unfold Creds
  rw [bigSep_sep']
  iintro ⟨⟨⟨H1, H2⟩, Hx⟩, Hy⟩
  isplitl [Hx Hy]
  · iapply hb
    isplitl [Hx]
    · iapply hx; iexact Hx
    · iapply hy; iexact Hy
  · isplitl [H1]
    · iapply (cred_O1 c); iexact H1
    · iapply (cred_O2 c); iexact H2

def QY (c : Dev nD) (s : MemSt nD τ sig (Elt F)) : Prop :=
  s.mem ((c : Thread nD τ).loc main_arg0) = m ((c : Thread nD τ).loc main_arg0)
    ∧ ResultOk (fun d => X m d) c (s.mem ((c : Thread nD τ).loc main_v1))

theorem read_out (c : Dev nD) (s' : Phys nD τ sig (Elt F)) :
    iprop(ArrOut m c ∗ (emp : sProp 𝕄) ∗ SI s') ⊢ |={Set.univ}=> iprop(⌜QY m c s'.mem⌝ ∗ SI s') := by
  unfold ArrOut
  iintro ⟨⟨Hx, ⟨%Fo, %hFo, Ho⟩⟩, -, HSI⟩
  icombine HSI Hx gives %hx
  icombine HSI Ho gives %ho
  imodintro
  isplitr
  · ipureintro
    exact ⟨Buf.eq_of_forall_mem_univ hx, by rw [Buf.eq_of_forall_mem_univ ho]; exact hFo⟩
  · iexact HSI

end Cert.KernelIdeal.A2A

end
-- ==== Proof.Launch.lean ====
import proofs.«900033_g7700000000000034_dist_a2a_v7x_xy2x2_y_m4096_n1024_f32_1_alg».proof.Proof.BodyRun
import proofs.«900033_g7700000000000034_dist_a2a_v7x_xy2x2_y_m4096_n1024_f32_1_alg».proof.Proof.LaunchAux
import proofs.«900033_g7700000000000034_dist_a2a_v7x_xy2x2_y_m4096_n1024_f32_1_alg».proof.Proof.Gen.KernelIdeal.Frame
import Mathlib.Logic.Equiv.Fin.Basic
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def eI : (Fin 6 × Fin 32) ⊕ Fin 4 ≃ Fin 196 := (Equiv.sumCongr finProdFinEquiv (Equiv.refl (Fin 4))).trans finSumFinEquiv

theorem eI_inl_val (a : Fin 6) (k : Fin 32) : (eI (.inl (a, k))).val = k.val + 32 * a.val := rfl
theorem eI_inr_val (j : Fin 4) : (eI (.inr j)).val = 192 + j.val := rfl

abbrev CI : Type := Unit ⊕ ((Fin 6 × Fin 32) ⊕ Fin 4)
def kcsem : CI → SemLoc sig
  | .inl _ => .reg barS
  | .inr x => .dma (eI x)
abbrev kcell (ck : Dev nD × CI) : GSem nD τ sig := ((ck.1 : Thread nD τ), kcsem ck.2)

theorem kcsem_injective : Function.Injective kcsem := by
  rintro (u | x) (u' | x') h
  · rfl
  · cases h
  · cases h
  · have h' : eI x = eI x' := by injection h
    rw [eI.injective h']

theorem kcell_injective : Function.Injective (kcell : Dev nD × CI → GSem nD τ sig) := by
  rintro ⟨c, k⟩ ⟨c', k'⟩ h
  have h1 : c = c' := by have := congrArg (fun g : GSem nD τ sig => g.1.1) h; exact this
  subst h1
  have h2 : kcsem k = kcsem k' := congrArg Prod.snd h
  rw [kcsem_injective h2]

theorem kc_of (c : Dev nD) (x : (Fin 6 × Fin 32) ⊕ Fin 4) (s : DmaSem sig) (h : (eI x).val = s.val) :
    kcell (c, .inr x) = (((c : Thread nD τ), SemLoc.dma s) : GSem nD τ sig) := by
  have h' : eI x = s := Fin.ext h
  show (((c : Thread nD τ), SemLoc.dma (eI x)) : GSem nD τ sig) = _
  rw [h']

theorem kc_g (c : Dev nD) (k : Fin 32) : kcell (c, .inr (.inl (0, k))) = cell gS c k :=
  kc_of c _ _ (by rw [ix_g, eI_inl_val]; show k.val + 32 * 0 = k.val; omega)
theorem kc_a (c : Dev nD) (k : Fin 32) : kcell (c, .inr (.inl (1, k))) = cell aS c k :=
  kc_of c _ _ (by rw [ix_a, eI_inl_val]; show k.val + 32 * 1 = 32 + k.val; omega)
theorem kc_b (c : Dev nD) (k : Fin 32) : kcell (c, .inr (.inl (2, k))) = cell bS c k :=
  kc_of c _ _ (by rw [ix_b, eI_inl_val]; show k.val + 32 * 2 = 64 + k.val; omega)
theorem kc_d (c : Dev nD) (k : Fin 32) : kcell (c, .inr (.inl (3, k))) = cell dS c k :=
  kc_of c _ _ (by rw [ix_d, eI_inl_val]; show k.val + 32 * 3 = 96 + k.val; omega)
theorem kc_e (c : Dev nD) (k : Fin 32) : kcell (c, .inr (.inl (4, k))) = cell eS c k :=
  kc_of c _ _ (by rw [ix_e, eI_inl_val]; show k.val + 32 * 4 = 128 + k.val; omega)
theorem kc_t (c : Dev nD) (k : Fin 32) : kcell (c, .inr (.inl (5, k))) = cell tS c k :=
  kc_of c _ _ (by rw [ix_t, eI_inl_val]; show k.val + 32 * 5 = 160 + k.val; omega)
theorem kc_L (c : Dev nD) (j : Fin 4) : kcell (c, .inr (.inr j)) = cellL c j :=
  kc_of c _ _ (by rw [ix_L, eI_inr_val])

def allCells : Finset (GSem nD τ sig) := Finset.univ.map ⟨kcell, kcell_injective⟩

abbrev TI : Type := Bool ⊕ ((Fin 6 × Fin 32) ⊕ (Fin 4 × Fin 4))
def tokCell : TI → CI
  | .inl _ => .inl ()
  | .inr (.inl ak) => .inr (.inl ak)
  | .inr (.inr jr) => .inr (.inr jr.1)
def tokRd : TI → ℕ
  | .inl _ => 0
  | .inr (.inl _) => 0
  | .inr (.inr jr) => jr.2.val
def tokDuty : TI → Bool
  | .inl b => b
  | .inr _ => false
abbrev tokOf (ct : Dev nD × TI) : GSem nD τ sig × ℕ × Bool := (kcell (ct.1, tokCell ct.2), tokRd ct.2, tokDuty ct.2)

theorem tokOf_injective : Function.Injective (tokOf : Dev nD × TI → GSem nD τ sig × ℕ × Bool) := by
  rintro ⟨c, t⟩ ⟨c', t'⟩ h
  have hk : (c, tokCell t) = (c', tokCell t') := kcell_injective (congrArg Prod.fst h)
  have hc : c = c' := congrArg Prod.fst hk
  have h1 : tokCell t = tokCell t' := congrArg Prod.snd hk
  have h2 : tokRd t = tokRd t' := congrArg (fun x : GSem nD τ sig × ℕ × Bool => x.2.1) h
  have h3 : tokDuty t = tokDuty t' := congrArg (fun x : GSem nD τ sig × ℕ × Bool => x.2.2) h
  subst hc
  have : t = t' := by
    rcases t with b | ak | ⟨j, r⟩ <;> rcases t' with b' | ak' | ⟨j', r'⟩ <;> simp only [tokCell, tokRd, tokDuty] at h1 h2 h3
    · rw [h3]
    · cases h1
    · cases h1
    · cases h1
    · have : ak = ak' := by injection h1 with h1; injection h1
      rw [this]
    · injection h1 with h1; cases h1
    · cases h1
    · injection h1 with h1; cases h1
    · have hj : j = j' := by injection h1 with h1; injection h1
      have hr : r = r' := Fin.ext h2
      rw [hj, hr]
  rw [this]

def allToks : Finset (GSem nD τ sig × ℕ × Bool) := Finset.univ.map ⟨tokOf, tokOf_injective⟩

def u₀ : UU :=
  (initOf (Pipeline.cells cfgs cellOf_inj) (Pipeline.launchToks cfgs cellOf_inj), initOf allCells allToks)

def toks (c : Dev nD) : sProp 𝕄 :=
  bigSep Finset.univ fun t : TI => dutyTok ER (tokOf (c, t)).1 (tokOf (c, t)).2.1 (tokOf (c, t)).2.2

def LG (c : Dev nD) : sProp 𝕄 :=
  iprop((bigSep Finset.univ fun k : CI => roundState ER (Rd m) (kcell (c, k)) 0)
    ∗ (bigSep Finset.univ fun k : CI => iprop(atPos ER (kcell (c, k)) 0 ∅ 0 ∗ reached ER (kcell (c, k)) 0)) ∗ toks c)

def KnownCells (K : GSem nD τ sig → ℕ) (c : Dev nD) : sProp 𝕄 :=
  iprop((bigSep Finset.univ fun k : Fin 32 => slotKnown m K c k) ∗ (bigSep Finset.univ fun j : Fin 4 => known m K (cellL c j))
    ∗ known m K (cellB c) ∗ known m K (cellB (ynb c)) ∗ known m K (cellB (xnb c)))

def LG' (c : Dev nD) : sProp 𝕄 := iprop(∃ K : GSem nD τ sig → ℕ, KnownCells m K c ∗ Lin c)

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
omit [FloatOps F] in
theorem bigSep_bool (Φ : Bool → sProp 𝕄) : bigSep Finset.univ Φ = iprop(Φ false ∗ Φ true) :=
  bigSep_univ_eq_bigSepL [false, true] (by decide) (by decide) Φ

omit [FloatOps F] in
theorem bigSep_six (Φ : Fin 6 × Fin 32 → sProp 𝕄) :
    bigSep Finset.univ Φ = bigSep Finset.univ fun k : Fin 32 => iprop(Φ (0, k) ∗ Φ (1, k) ∗ Φ (2, k) ∗ Φ (3, k) ∗ Φ (4, k) ∗ Φ (5, k)) := by
  rw [bigSep_univ_equiv (Equiv.prodComm (Fin 32) (Fin 6)) Φ, bigSep_univ_prod]
  exact bigSep_congr fun k _ => bigSep_fin6 fun a => Φ (a, k)

omit [FloatOps F] in
theorem bigSep_CI (Φ : CI → sProp 𝕄) :
    bigSep Finset.univ Φ = iprop(Φ (.inl ())
      ∗ (bigSep Finset.univ fun k : Fin 32 => iprop(Φ (.inr (.inl (0, k))) ∗ Φ (.inr (.inl (1, k))) ∗ Φ (.inr (.inl (2, k))) ∗ Φ (.inr (.inl (3, k)))
          ∗ Φ (.inr (.inl (4, k))) ∗ Φ (.inr (.inl (5, k)))))
      ∗ bigSep Finset.univ fun j : Fin 4 => Φ (.inr (.inr j))) := by
  rw [bigSep_univ_sum, bigSep_univ_of_subsingleton (), bigSep_univ_sum, bigSep_six fun ak => Φ (.inr (.inl ak))]
  rfl

omit [FloatOps F] in
theorem bigSep_TI (Φ : TI → sProp 𝕄) :
    bigSep Finset.univ Φ = iprop((Φ (.inl false) ∗ Φ (.inl true))
      ∗ (bigSep Finset.univ fun k : Fin 32 => iprop(Φ (.inr (.inl (0, k))) ∗ Φ (.inr (.inl (1, k))) ∗ Φ (.inr (.inl (2, k))) ∗ Φ (.inr (.inl (3, k)))
          ∗ Φ (.inr (.inl (4, k))) ∗ Φ (.inr (.inl (5, k)))))
      ∗ bigSep Finset.univ fun j : Fin 4 => bigSep Finset.univ fun r : Fin 4 => Φ (.inr (.inr (j, r)))) := by
  rw [bigSep_univ_sum, bigSep_bool, bigSep_univ_sum, bigSep_six fun ak => Φ (.inr (.inl ak)), bigSep_univ_prod fun jr : Fin 4 × Fin 4 => Φ (.inr (.inr jr))]
  rfl

theorem fund_all : BI.own (ER (initOf allCells allToks)) ⊢ (|==> bigSep Finset.univ (LG m) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold LG; simp only [bigSep_sep']
  iframe Hst'
  isplitl [Hat' Hr']
  · isplitl [Hat'] <;> iassumption
  iexact Htok'

omit [FloatOps F] in
theorem unscopedSems0_eq (c : Dev nD) : (unscopedSems0 c : sProp 𝕄) = semVal (cellB c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [unscopedSems0_eq, bigSep_univ_sum, bigSep_univ_of_subsingleton ()]
  unfold Pipeline.ownSems0
  rw [bigSep_univ_equiv eI]
  show _ ⊢ iprop(semVal (kcell (c, .inl ())) 0 ∗ bigSep Finset.univ fun b : (Fin 6 × Fin 32) ⊕ Fin 4 => semVal (kcell (c, .inr b)) 0)
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ LG m c)
      ⊢ |={Set.univ}=> iprop((bigSep Finset.univ fun k : CI => iprop(∃ κ : ℕ, cellInv ER (Rd m) κ (kcell (c, k))))
          ∗ (bigSep Finset.univ fun k : CI => iprop(atPos ER (kcell (c, k)) 0 ∅ 0 ∗ reached ER (kcell (c, k)) 0)) ∗ toks c) := by
  unfold LG
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (Rd m) (kcell (c, k)) 0)
      ⊢ (|={Set.univ}=> bigSep Finset.univ fun k : CI => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  iframe Hinv Hat Htok

def records (K : GSem nD τ sig → ℕ) : sProp 𝕄 :=
  iprop((bigSep Finset.univ fun ck : Dev nD × CI => cellInv ER (Rd m) (K (kcell ck)) (kcell ck))
    ∗ bigSep Finset.univ fun ck : Dev nD × CI => reached ER (kcell ck) 0)

instance records_persistent (K : GSem nD τ sig → ℕ) : BI.Persistent (records m K) := by unfold records; infer_instance

theorem inv_at (K : GSem nD τ sig → ℕ) (ck : Dev nD × CI) :
    (bigSep Finset.univ fun ck : Dev nD × CI => (cellInv ER (Rd m) (K (kcell ck)) (kcell ck) : sProp 𝕄)) ⊢ cellInv ER (Rd m) (K (kcell ck)) (kcell ck) :=
  bigSep_elim (Finset.mem_univ ck)
omit [FloatOps F] in
theorem reached_at (ck : Dev nD × CI) :
    (bigSep Finset.univ fun ck : Dev nD × CI => (reached ER (kcell ck) 0 : sProp 𝕄)) ⊢ reached ER (kcell ck) 0 :=
  bigSep_elim (Finset.mem_univ ck)

theorem known_at (K : GSem nD τ sig → ℕ) (ck : Dev nD × CI) : records m K ⊢ known m K (kcell ck) := by
  unfold records known
  iintro ⟨#HI, #HR⟩
  isplitr
  · iapply (inv_at m K ck); iexact HI
  · iapply (reached_at (F := F) ck); iexact HR

theorem known_B (K : GSem nD τ sig → ℕ) (c : Dev nD) : records m K ⊢ known m K (cellB c) := known_at m K (c, .inl ())
theorem known_g (K : GSem nD τ sig → ℕ) (c : Dev nD) (k : Fin 32) : records m K ⊢ known m K (cell gS c k) := by rw [← kc_g]; exact known_at m K _
theorem known_a (K : GSem nD τ sig → ℕ) (c : Dev nD) (k : Fin 32) : records m K ⊢ known m K (cell aS c k) := by rw [← kc_a]; exact known_at m K _
theorem known_b (K : GSem nD τ sig → ℕ) (c : Dev nD) (k : Fin 32) : records m K ⊢ known m K (cell bS c k) := by rw [← kc_b]; exact known_at m K _
theorem known_d (K : GSem nD τ sig → ℕ) (c : Dev nD) (k : Fin 32) : records m K ⊢ known m K (cell dS c k) := by rw [← kc_d]; exact known_at m K _
theorem known_e (K : GSem nD τ sig → ℕ) (c : Dev nD) (k : Fin 32) : records m K ⊢ known m K (cell eS c k) := by rw [← kc_e]; exact known_at m K _
theorem known_t (K : GSem nD τ sig → ℕ) (c : Dev nD) (k : Fin 32) : records m K ⊢ known m K (cell tS c k) := by rw [← kc_t]; exact known_at m K _
theorem known_L (K : GSem nD τ sig → ℕ) (c : Dev nD) (j : Fin 4) : records m K ⊢ known m K (cellL c j) := by rw [← kc_L]; exact known_at m K _

theorem slotKnown_intro (K : GSem nD τ sig → ℕ) (c : Dev nD) (k : Fin 32) : records m K ⊢ slotKnown m K c k := by
  unfold slotKnown
  iintro #H
  isplitr; · iapply (known_g m K c k); iexact H
  isplitr; · iapply (known_a m K c k); iexact H
  isplitr; · iapply (known_b m K c k); iexact H
  isplitr; · iapply (known_d m K c k); iexact H
  isplitr; · iapply (known_e m K c k); iexact H
  isplitr; · iapply (known_t m K c k); iexact H
  isplitr; · iapply (known_b m K (ynb c) k); iexact H
  iapply (known_e m K (xnb c) k); iexact H

theorem knownCells_intro (K : GSem nD τ sig → ℕ) (c : Dev nD) : records m K ⊢ KnownCells m K c := by
  unfold KnownCells
  iintro #H
  isplitr; · iapply (BI.bigSep_intro_persistent (S := Finset.univ) (R := records m K) (Φ := fun k : Fin 32 => slotKnown m K c k) fun k _ => slotKnown_intro m K c k); iexact H
  isplitr; · iapply (BI.bigSep_intro_persistent (S := Finset.univ) (R := records m K) (Φ := fun j : Fin 4 => known m K (cellL c j)) fun j _ => known_L m K c j); iexact H
  isplitr; · iapply (known_B m K c); iexact H
  isplitr; · iapply (known_B m K (ynb c)); iexact H
  iapply (known_B m K (xnb c)); iexact H

theorem toks_eq (c : Dev nD) : toks c = (iprop((dutyTok ER (cellB c) 0 false ∗ dutyTok ER (cellB c) 0 true)
    ∗ (bigSep Finset.univ fun k : Fin 32 => iprop(tok (cell gS c k) 0 ∗ tok (cell aS c k) 0 ∗ tok (cell bS c k) 0 ∗ tok (cell dS c k) 0 ∗ tok (cell eS c k) 0 ∗ tok (cell tS c k) 0))
    ∗ bigSep Finset.univ fun j : Fin 4 => bigSep Finset.univ fun r : Fin 4 => tok (cellL c j) r.val) : sProp 𝕄) := by
  unfold toks
  rw [bigSep_TI]
  simp only [tokCell, tokRd, tokDuty, kc_g, kc_a, kc_b, kc_d, kc_e, kc_t, kc_L]
  rfl

def payToks (c : Dev nD) : sProp 𝕄 :=
  iprop((dutyTok ER (cellB (ynb c)) 0 false ∗ dutyTok ER (cellB (xnb c)) 0 true)
    ∗ (bigSep Finset.univ fun k : Fin 32 => iprop(tok (cell gS c k) 0 ∗ tok (cell aS c k) 0 ∗ tok (cell bS (ynb c) k) 0 ∗ tok (cell dS c k) 0 ∗ tok (cell eS (xnb c) k) 0 ∗ tok (cell tS c k) 0))
    ∗ bigSep Finset.univ fun j : Fin 4 => bigSep Finset.univ fun r : Fin 4 => tok (cellL c j) r.val)

theorem toks_around : (bigSep Finset.univ fun c : Dev nD => (toks c : sProp 𝕄)) ⊢ bigSep Finset.univ fun c : Dev nD => payToks c := by
  simp only [toks_eq, payToks, bigSep_sep']
  rw [bigSep_univ_equiv yEquiv (fun c : Dev nD => (dutyTok ER (cellB c) 0 false : sProp 𝕄)),
    bigSep_univ_equiv xEquiv (fun c : Dev nD => (dutyTok ER (cellB c) 0 true : sProp 𝕄)),
    bigSep_univ_equiv yEquiv (fun c : Dev nD => (bigSep Finset.univ fun k : Fin 32 => tok (cell bS c k) 0 : sProp 𝕄)),
    bigSep_univ_equiv xEquiv (fun c : Dev nD => (bigSep Finset.univ fun k : Fin 32 => tok (cell eS c k) 0 : sProp 𝕄))]
  exact .rfl

theorem slotLin_intro (c : Dev nD) (k : Fin 32) :
    iprop((pos (cell gS c k) 0 ∗ pos (cell aS c k) 0 ∗ pos (cell bS c k) 0 ∗ pos (cell dS c k) 0 ∗ pos (cell eS c k) 0 ∗ pos (cell tS c k) 0)
      ∗ (tok (cell gS c k) 0 ∗ tok (cell aS c k) 0 ∗ tok (cell bS (ynb c) k) 0 ∗ tok (cell dS c k) 0 ∗ tok (cell eS (xnb c) k) 0 ∗ tok (cell tS c k) 0))
      ⊢ (SlotLin c k : sProp 𝕄) := by
  unfold SlotLin
  iintro ⟨⟨P1, P2, P3, P4, P5, P6⟩, T1, T2, T3, T4, T5, T6⟩
  iframe P1 P2 P3 P4 P5 P6 T1 T2 T4 T6 T3 T5

theorem slots_lin (c : Dev nD) :
    iprop((bigSep Finset.univ fun k : Fin 32 => iprop(pos (cell gS c k) 0 ∗ pos (cell aS c k) 0 ∗ pos (cell bS c k) 0 ∗ pos (cell dS c k) 0 ∗ pos (cell eS c k) 0 ∗ pos (cell tS c k) 0))
      ∗ (bigSep Finset.univ fun k : Fin 32 => iprop(tok (cell gS c k) 0 ∗ tok (cell aS c k) 0 ∗ tok (cell bS (ynb c) k) 0 ∗ tok (cell dS c k) 0 ∗ tok (cell eS (xnb c) k) 0 ∗ tok (cell tS c k) 0)))
      ⊢ (bigSep Finset.univ fun k : Fin 32 => SlotLin c k : sProp 𝕄) := by
  rw [← bigSep_sep']
  exact bigSep_mono fun k _ => slotLin_intro c k

theorem chunks_lin (c : Dev nD) :
    iprop((bigSep Finset.univ fun j : Fin 4 => pos (cellL c j) 0)
      ∗ (bigSep Finset.univ fun j : Fin 4 => bigSep Finset.univ fun r : Fin 4 => tok (cellL c j) r.val))
      ⊢ (bigSep Finset.univ fun s : Fin 2 => VLin c s : sProp 𝕄) := by
  rw [bigSep_fin4, bigSep_fin4, bigSep_univ_two]
  unfold VLin
  iintro ⟨⟨P0, P1, P2, P3⟩, T0, T1, T2, T3⟩
  isplitl [P0 P2 T0 T2]
  · isplitl [P0]; · iexact P0
    isplitl [P2]; · iexact P2
    isplitl [T0]; · iexact T0
    iexact T2
  · isplitl [P1]; · iexact P1
    isplitl [P3]; · iexact P3
    isplitl [T1]; · iexact T1
    iexact T3

theorem lin_of (c : Dev nD) :
    iprop((bigSep Finset.univ fun k : CI => atPos ER (kcell (c, k)) 0 ∅ 0) ∗ payToks c) ⊢ (Lin c : sProp 𝕄) := by
  rw [bigSep_CI]
  simp only [kc_g, kc_a, kc_b, kc_d, kc_e, kc_t, kc_L]
  unfold payToks Lin
  iintro ⟨⟨HpB, Hp6, HpL⟩, ⟨HtY, HtX⟩, Ht6, HtL⟩
  isplitl [HpB HtY HtX]
  · isplitl [HpB]; · iexact HpB
    isplitl [HtY]; · iexact HtY
    iexact HtX
  isplitl [Hp6 Ht6]
  · iapply (slots_lin (F := F) c)
    isplitl [Hp6]; · iexact Hp6
    iexact Ht6
  · iapply (chunks_lin (F := F) c)
    isplitl [HpL]; · iexact HpL
    iexact HtL

theorem lin_intro (K : GSem nD τ sig → ℕ) (c : Dev nD) :
    iprop(records m K ∗ iprop((bigSep Finset.univ fun k : CI => atPos ER (kcell (c, k)) 0 ∅ 0) ∗ payToks c)) ⊢ LG' m c := by
  unfold LG'
  iintro ⟨#HR, HL⟩
  iexists K
  isplitr
  · iapply (knownCells_intro m K c); iexact HR
  · iapply (lin_of (F := F) c); iexact HL

instance : Nonempty (Dev nD × CI) := ⟨(⟨0, by decide⟩, .inl ())⟩

def nameOf (K' : Dev nD × CI → ℕ) : GSem nD τ sig → ℕ := fun g => K' (Function.invFun kcell g)
theorem nameOf_kcell (K' : Dev nD × CI → ℕ) (ck : Dev nD × CI) : nameOf K' (kcell ck) = K' ck := by
  unfold nameOf; rw [Function.leftInverse_invFun kcell_injective ck]

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CI => iprop(∃ κ : ℕ, cellInv ER (Rd m) κ (kcell (c, k))))
          ∗ (bigSep Finset.univ fun k : CI => iprop(atPos ER (kcell (c, k)) 0 ∅ 0 ∗ reached ER (kcell (c, k)) 0)) ∗ toks c) : sProp 𝕄)
      ⊢ bigSep Finset.univ (LG' m) := by
  rw [bigSep_sep', bigSep_sep', ← bigSep_univ_prod (fun ck : Dev nD × CI => iprop(∃ κ : ℕ, cellInv ER (Rd m) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (Rd m) κ (kcell ck) : sProp 𝕄))) $$ HI
  icases HK with ⟨%K', #HI⟩
  ihave Htk := (toks_around (F := F)) $$ Htok
  have e : (bigSep Finset.univ fun ck : Dev nD × CI => (cellInv ER (Rd m) (K' ck) (kcell ck) : sProp 𝕄))
      = bigSep Finset.univ fun ck : Dev nD × CI => cellInv ER (Rd m) (nameOf K' (kcell ck)) (kcell ck) :=
    bigSep_congr fun ck _ => by rw [nameOf_kcell]
  iapply (bigSep_with_persistent (R := records m (nameOf K')) fun c _ => lin_intro m (nameOf K') c)
  isplitr
  · unfold records; isplitl
    · iapply (Entails.of_eq e); iexact HI
    · iexact HR
  · iapply (Entails.of_eq (bigSep_sep' Finset.univ (fun c : Dev nD => bigSep Finset.univ fun k : CI => (atPos ER (kcell (c, k)) 0 ∅ 0 : sProp 𝕄)) payToks).symm)
    iframe Hat Htk

theorem glob : (bigSep Finset.univ fun c => iprop(Pipeline.ownSems0 (Ix := Unit) (Name := ℕ) (U := UU) (Lvl := ℕ) (Val := Elt F) (τ := τ) osem c ∗ unscopedSems0 c ∗ LG m c) : sProp 𝕄)
    ⊢ |={Set.univ}=> bigSep Finset.univ (LG' m) :=
  ((bigSep_mono fun c _ => core_alloc m c).trans (bigSep_fupd _ _)).trans (BI.fupd_mono (regroup m))

theorem ownSemFacts : Pipeline.OwnSemFacts cfg0.spec osem := by decide

theorem share_eq (c : Dev nD) (w : Fin cfg0.W) : (dats m 0 c).share w = fullShare := w.elim0

theorem known_join (K : GSem nD τ sig → ℕ) (c : Dev nD) : iprop(KnownCells m K c ∗ levAts L lv) ⊢ Known m K c := by
  unfold KnownCells Known
  iintro ⟨⟨A, B, C, D, E⟩, Hl⟩
  iframe A B C D E Hl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ LG' m c)
      ⊢ |={Set.univ}=> iprop(iprop(Start m c ∗ ArrIn m c) ∗ emp) := by
  rw [Pipeline.unscopedRestP_none, unscopedRest0_eq]
  unfold LG'
  iintro ⟨⟨Hx, Ho⟩, Hlev, Hcr, -, ⟨%K, HK, HL⟩⟩
  ihave Hc := (creds (F := F) c) $$ Hcr
  imodintro
  isplitl
  · isplitl [HK Hlev HL Hc]
    · unfold Start
      iexists K
      isplitl [HK Hlev]
      · iapply (known_join m K c)
        iframe HK Hlev
      iframe HL Hc
    · unfold ArrIn
      iframe Hx
      iexists _; iexact Ho
  · iempintro

theorem someAt_sM (c : Dev nD) : (SomeAt c sM : sProp 𝕄)
    = iprop(∃ f : Buf (Elt F) ((c : Thread nD τ).loc cc0_scratch0), ((c : Thread nD τ).loc cc0_scratch0) ↦{fullShare} f) := by
  unfold SomeAt; rw [show (sM : Memref sig .tc .vmem S32x64x1024 .f32).view.set = Finset.univ from View.set_whole _]
theorem someAt_rM (c : Dev nD) : (SomeAt c rM : sProp 𝕄)
    = iprop(∃ f : Buf (Elt F) ((c : Thread nD τ).loc cc0_scratch1), ((c : Thread nD τ).loc cc0_scratch1) ↦{fullShare} f) := by
  unfold SomeAt; rw [show (rM : Memref sig .tc .vmem S32x64x1024 .f32).view.set = Finset.univ from View.set_whole _]
theorem someAt_vM (c : Dev nD) : (SomeAt c vM : sProp 𝕄)
    = iprop(∃ f : Buf (Elt F) ((c : Thread nD τ).loc cc0_scratch2), ((c : Thread nD τ).loc cc0_scratch2) ↦{fullShare} f) := by
  unfold SomeAt; rw [show (vM : Memref sig .tc .vmem S2x512x1024 .f32).view.set = Finset.univ from View.set_whole _]

theorem phi0_intro (c : Dev nD) :
    iprop(iprop(Start m c ∗ ArrIn m c) ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ Scratch
  rw [someAt_sM, someAt_rM, someAt_vM]
  iintro ⟨⟨Hs, Ha⟩, -, H0, H1, H2⟩
  iframe Hs Ha H0 H1 H2

theorem phi1_exit (c : Dev nD) :
    (dats m 0 c).Φ (Fin.last cfg0.N) ⊢ iprop(ArrOut m c ∗ Pipeline.ownSems0 osem c ∗ Pipeline.scopedRest cfg0.spec c) := by
  rw [show (dats m 0 c).Φ (Fin.last cfg0.N) = Φ₁ m c from rfl, scopedRest0_eq]
  unfold Φ₁ Scratch
  rw [someAt_sM, someAt_rM, someAt_vM]
  iintro ⟨Ho, ⟨H0, H1, H2⟩, Hz⟩
  iframe Ho Hz H0 H1 H2

theorem waits (c : Dev nD) : (levAts L lv : sProp 𝕄) ⊢ Pipeline.cellsWaits cfgs (dats m) () 0 c :=
  Pipeline.cellsWaits_intro cfgs (dats m) () 0 c fun w s t => w.elim0

-- every weakly fair execution ends with each device's block unchanged and its result as ResultOk says, for any body table that meets the body obligation
set_option maxRecDepth 65536 in
theorem run_of (dfs : Defs nD τ sig (Elt F) Λ₀) (hb : ∀ c, BodyObligation (dats (F := F) m 0 c) dfs 𝒱₀ () Set.univ) :
    θ_run (Pipeline.defs pcfgs dfs) (onTc (τ := τ) (main (F := F))) ⟨m, fun _ => 0, ρ⟩ (fun r => ∀ c : Dev nD,
      r.2.mem ((c : Thread nD τ).loc main_arg0) = m ((c : Thread nD τ).loc main_arg0)
      ∧ ResultOk (fun d => X m d) c (r.2.mem ((c : Thread nD τ).loc main_v1))) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP dfs 𝒱₀ m ρ main
    (hmain := fun _ => rfl)
    (hbody := hb) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := LG m) (G' := LG' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := fun c => iprop(Start m c ∗ ArrIn m c)) (Y := fun c => ArrOut m c) (Z := fun _ => iprop(emp))
    (hX := start_intro m ρ) (hin := phi0_intro m) (hout := phi1_exit m)
    (QY := QY m)
    (hY := read_out m)
    (hQ := fun _ h c => (h c).2.2)

theorem run_main :
    θ_run defs (onTc (τ := τ) (main (F := F))) ⟨m, fun _ => 0, ρ⟩ (fun r => ∀ c : Dev nD,
      r.2.mem ((c : Thread nD τ).loc main_arg0) = m ((c : Thread nD τ).loc main_arg0)
      ∧ ResultOk (fun d => X m d) c (r.2.mem ((c : Thread nD τ).loc main_v1))) :=
  run_of m ρ defs₀ (body_obligation m)

end Cert.KernelIdeal.A2A

end
-- ==== Proof.KRun.lean ====
import proofs.«900033_g7700000000000034_dist_a2a_v7x_xy2x2_y_m4096_n1024_f32_1_alg».proof.Proof.Launch
import proofs.«900033_g7700000000000034_dist_a2a_v7x_xy2x2_y_m4096_n1024_f32_1_alg».proof.Proof.Gen.Kernel
import proofs.«900033_g7700000000000034_dist_a2a_v7x_xy2x2_y_m4096_n1024_f32_1_alg».proof.Proof.Gen.Kernel.Skeleton
import proofs.«900033_g7700000000000034_dist_a2a_v7x_xy2x2_y_m4096_n1024_f32_1_alg».proof.Proof.Gen.Kernel.Launch
import Idealize.ShloMosaic.Lib.Pipeline.Launch
import Idealize.ShloMosaic.Lib.Pipeline.Kit
import Idealize.ShloMosaic.Lib.Tactic

noncomputable section

namespace Cert.Kernel.A2A

open Cert.Kernel Cert.Kernel.Gen Cert.KernelIdeal.A2A
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem dev1K (c : Dev nD) : (⟨k0_dev1 c, k0_dev1_lt c⟩ : Dev nD) = ynb c := Fin.ext (k0_dev1_eq c)
theorem dev2K (c : Dev nD) : (⟨k0_dev2 c, k0_dev2_lt c⟩ : Dev nD) = xnb c := Fin.ext (k0_dev2_eq c)

-- at any one program the printed kernel's weakest precondition is that definition: the two programs have one signature
theorem wpK_eq (c : Dev nD) (p : PG F) (Q : PUnit → sProp 𝕄) :
    WP (defs₀ (F := F)) c p Q = wp frame (wpE (defs₀ (F := F)) 𝒱₀ (c : Thread nD τ) none) Set.univ p Q := rfl

set_option maxHeartbeats 4000000 in
set_option maxRecDepth 65536 in
-- the printed kernel's unrolled body is the same composition of phases: its offsets and device chains unfold to the same terms
theorem bridgeK (c : Dev nD) (Q : PUnit → sProp 𝕄) :
    WP (defs₀ (F := F)) c (progAll c (Prog.ret ⟨⟩)) Q
      ⊢ WP (defs₀ (F := F)) c ((defs₀ (F := F)) .tc Cert.KernelIdeal.cfg0.body (Cert.KernelIdeal.cfg0.bodyArgs Cert.KernelIdeal.Gen.t0_0 (Cert.KernelIdeal.cfg0.slots Cert.KernelIdeal.Gen.t0_0))) Q := by
  rw [wpK_eq, wpK_eq]
  show _ ⊢ wp frame _ Set.univ (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9) Q
  rw [← progAllG_eq]
  simp only [cc0_body_eq_skeleton, cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, k0_part58_eq_skeleton, k0_part58_skel, k0_part59_eq_skeleton, k0_part59_skel, k0_part60_eq_skeleton, k0_part60_skel, k0_part61_eq_skeleton, k0_part61_skel, k0_part62_eq_skeleton, k0_part62_skel, k0_part63_eq_skeleton, k0_part63_skel, k0_part64_eq_skeleton, k0_part64_skel, k0_part65_eq_skeleton, k0_part65_skel, k0_part66_eq_skeleton, k0_part66_skel, k0_part67_eq_skeleton, k0_part67_skel, k0_part68_eq_skeleton, k0_part68_skel, k0_part69_eq_skeleton, k0_part69_skel, k0_part70_eq_skeleton, k0_part70_skel, k0_part71_eq_skeleton, k0_part71_skel, k0_part72_eq_skeleton, k0_part72_skel, k0_part73_eq_skeleton, k0_part73_skel, k0_part74_eq_skeleton, k0_part74_skel, k0_part75_eq_skeleton, k0_part75_skel, k0_part76_eq_skeleton, k0_part76_skel, k0_part77_eq_skeleton, k0_part77_skel, k0_part78_eq_skeleton, k0_part78_skel, k0_part79_eq_skeleton, k0_part79_skel, k0_part80_eq_skeleton, k0_part80_skel, k0_part81_eq_skeleton, k0_part81_skel, k0_part82_eq_skeleton, k0_part82_skel, k0_part83_eq_skeleton, k0_part83_skel, k0_part84_eq_skeleton, k0_part84_skel, k0_part85_eq_skeleton, k0_part85_skel, k0_part86_eq_skeleton, k0_part86_skel, k0_part87_eq_skeleton, k0_part87_skel, k0_part88_eq_skeleton, k0_part88_skel, k0_part89_eq_skeleton, k0_part89_skel, k0_part90_eq_skeleton, k0_part90_skel, k0_part91_eq_skeleton, k0_part91_skel, k0_part92_eq_skeleton, k0_part92_skel, k0_part93_eq_skeleton, k0_part93_skel, k0_part94_eq_skeleton, k0_part94_skel, k0_part95_eq_skeleton, k0_part95_skel, k0_part96_eq_skeleton, k0_part96_skel, k0_part97_eq_skeleton, k0_part97_skel, k0_part98_eq_skeleton, k0_part98_skel, k0_part99_eq_skeleton, k0_part99_skel, k0_part100_eq_skeleton, k0_part100_skel, k0_part101_eq_skeleton, k0_part101_skel]
  simp only [semSignalWord, semWaitWord, Prog.lift, Prog.bind_op, Prog.bind_ret, Prog.pure_eq_ret, wp_deviceId]
  simp only [dev1K c, dev2K c]
  exact BI.Entails.refl _

variable (m : (ℓ : Loc nD τ sig) → Buf (Elt F) ℓ) (ρ : Dev nD → PrngReg)

set_option maxRecDepth 65536 in
theorem body_obligationK (c : Dev nD) : BodyObligation (dats (F := F) m 0 c) (defs₀ (F := F)) 𝒱₀ () Set.univ :=
  body_obligation_of m defs₀ c (fun Q => bridgeK c Q)

-- the same launch at the printed kernel's body table; every other fact is the idealized kernel's, whose signature is the same term
theorem run_main :
    θ_run defs (onTc (τ := τ) (main (F := F))) ⟨m, fun _ => 0, ρ⟩ (fun r => ∀ c : Dev nD,
      r.2.mem ((c : Thread nD τ).loc main_arg0) = m ((c : Thread nD τ).loc main_arg0)
      ∧ ResultOk (fun d => X m d) c (r.2.mem ((c : Thread nD τ).loc main_v1))) :=
  run_of m ρ defs₀ (body_obligationK m)

end Cert.Kernel.A2A

end
-- ==== Proof.Value.lean ====
import proofs.«900033_g7700000000000034_dist_a2a_v7x_xy2x2_y_m4096_n1024_f32_1_alg».proof.Proof.Split
import proofs.«900033_g7700000000000034_dist_a2a_v7x_xy2x2_y_m4096_n1024_f32_1_alg».proof.Defs
import Idealize.ShloMosaic.Lib.Layout

noncomputable section

namespace Cert.KernelIdeal.A2A

open Cert.KernelIdeal Cert.KernelIdeal.Gen
open Idealize.ShloMosaic
open Idealize.ShloMosaic.TcCoe

variable {F : FTy → Type} [FloatOps F]

theorem read_unit_whole (b : Ref sig .tc) (off size : Fin b.ty.shape.rank → Nat)
    (inb : ∀ a, off a + size a ≤ b.ty.shape.size a) (f : b.ty.Contents (Elt F))
    (x : (Rect.unit off size inb).shape.Idx) :
    ((Memref.whole b).slice (Rect.unit off size inb) (fun _ => rfl)).view.read (Elt F) f x
      = f ((Rect.unit off size inb).emb x) := rfl

theorem mb_rows0 (d : Dev nD) : ((Layout.meshBlock [2, 2] ![[1], []] d) 0).val = d.val % 2 := by revert d; decide
theorem mb_rows1 (d : Dev nD) : ((Layout.meshBlock [2, 2] ![[1], []] d) 1).val = 0 := by revert d; decide
theorem mb_cols0 (d : Dev nD) : ((Layout.meshBlock [2, 2] ![[], [1]] d) 0).val = 0 := by revert d; decide
theorem mb_cols1 (d : Dev nD) : ((Layout.meshBlock [2, 2] ![[], [1]] d) 1).val = d.val % 2 := by revert d; decide

theorem ynb_div (s : Dev nD) : (ynb s).val / 2 = s.val / 2 := by revert s; decide
theorem ynb_mod (s : Dev nD) : (ynb s).val % 2 + s.val % 2 = 1 := by revert s; decide

theorem own_src (cv r : ℕ) (hr : r < 8192) (h1 : r / 4096 = cv % 2) :
    r = 4096 * (cv % 2) + (512 * ((r % 4096) / 512) + (r - (4096 * (cv % 2) + 512 * ((r % 4096) / 512)))) := by omega

theorem other_src (sv gv r : ℕ) (hs : sv < 4) (hr : r < 8192) (h1 : ¬ r / 4096 = sv % 2) (h2 : (r % 4096) / 2048 = sv / 2)
    (hgd : gv / 2 = sv / 2) (hgm : gv % 2 + sv % 2 = 1) :
    r = 4096 * (gv % 2) + (2048 * (gv / 2) + 64 * ((r % 2048) / 64)
      + (r - ((2048 * (sv / 2) + 64 * ((r % 2048) / 64) + 4096) - 4096 * (sv % 2)))) := by omega
theorem other_col (cv sv gv l : ℕ) (hsm : sv % 2 = cv % 2) (hgm : gv % 2 + sv % 2 = 1) :
    1024 * (cv % 2) + l = (1024 - 1024 * (gv % 2)) + (l - 0) := by omega

theorem at_of_slice
    (Xw : Buf (Elt F) (((0 : Dev Cert.ReferenceIdeal.nD).tc : Thread Cert.ReferenceIdeal.nD Cert.ReferenceIdeal.τ).loc Cert.ReferenceIdeal.main_arg0))
    (xs : (c : Dev nD) → Buf (Elt F) ((c : Thread nD τ).loc main_arg0))
    (hxs : ∀ c : Dev nD, xs c = Layout.blockN ⟨2, ![4096, 2048]⟩ ⟨2, ![8192, 2048]⟩ (Layout.meshBlock [2, 2] ![[1], []] c) Xw)
    (c d : Dev nD) (Fo : Buf (Elt F) ((c : Thread nD τ).loc main_v1))
    (size offO offX : Fin 2 → Nat)
    (inbO : ∀ a, offO a + size a ≤ S8192x1024.size a) (inbX : ∀ a, offX a + size a ≤ S4096x2048.size a)
    (e : (oM.slice (Rect.unit (s := S8192x1024) offO size inbO) (fun _ => rfl)).view.read (Elt F) Fo
        = (xM.slice (Rect.unit (s := S4096x2048) offX size inbX) (fun _ => rfl)).view.read (Elt F) (xs d))
    (i : S8192x1024.Idx) (hi : ∀ a, offO a ≤ (i a).val ∧ (i a).val < offO a + size a)
    (t : (⟨2, ![8192, 2048]⟩ : Shape).Idx)
    (ht0 : (t 0).val = 4096 * (d.val % 2) + (offX 0 + ((i 0).val - offO 0)))
    (ht1 : (t 1).val = offX 1 + ((i 1).val - offO 1)) :
    Fo i = Xw t := by
  let x : (Rect.unit (s := S8192x1024) offO size inbO).shape.Idx :=
    fun a => ⟨(i a).val - offO a, by have := hi a; show _ < size a; omega⟩
  have eO : (Rect.unit (s := S8192x1024) offO size inbO).emb x = i :=
    funext fun a => Fin.ext (by have := hi a; rw [Rect.emb_apply]; show offO a + 1 * ((i a).val - offO a) = _; omega)
  have e1 := congrFun e x
  rw [read_unit_whole main_v1 offO size inbO Fo x, read_unit_whole main_arg0 offX size inbX (xs d) x, eO, hxs d] at e1
  rw [e1, Layout.blockN_apply]
  congr 1
  funext a
  apply Fin.ext
  rw [Layout.TilesN.idx_val]
  fin_cases a
  · show ((Layout.meshBlock [2, 2] ![[1], []] d) 0).val * 4096 + (offX 0 + 1 * ((i 0).val - offO 0)) = (t 0).val
    rw [mb_rows0, ht0]; omega
  · show ((Layout.meshBlock [2, 2] ![[1], []] d) 1).val * 2048 + (offX 1 + 1 * ((i 1).val - offO 1)) = (t 1).val
    rw [mb_rows1, ht1]; omega

section
variable
    (Xw : Buf (Elt F) (((0 : Dev Cert.ReferenceIdeal.nD).tc : Thread Cert.ReferenceIdeal.nD Cert.ReferenceIdeal.τ).loc Cert.ReferenceIdeal.main_arg0))
    (xs : (c : Dev nD) → Buf (Elt F) ((c : Thread nD τ).loc main_arg0))
    (hxs : ∀ c : Dev nD, xs c = Layout.blockN ⟨2, ![4096, 2048]⟩ ⟨2, ![8192, 2048]⟩ (Layout.meshBlock [2, 2] ![[1], []] c) Xw)
    (c : Dev nD) (Fo : Buf (Elt F) ((c : Thread nD τ).loc main_v1))

abbrev tgt (c : Dev nD) (i : (⟨2, ![8192, 1024]⟩ : Shape).Idx) : (⟨2, ![8192, 2048]⟩ : Shape).Idx :=
  Layout.TilesN.idx (S := ⟨2, ![8192, 1024]⟩) (T := ⟨2, ![8192, 2048]⟩) (by decide) (Layout.meshBlock [2, 2] ![[], [1]] c) i

theorem tgt0 (c : Dev nD) (i : (⟨2, ![8192, 1024]⟩ : Shape).Idx) : (tgt c i 0).val = (i 0).val := by
  rw [Layout.TilesN.idx_val]
  show ((Layout.meshBlock [2, 2] ![[], [1]] c) 0).val * 8192 + (i 0).val = _
  rw [mb_cols0]; omega
theorem tgt1 (c : Dev nD) (i : (⟨2, ![8192, 1024]⟩ : Shape).Idx) : (tgt c i 1).val = 1024 * (c.val % 2) + (i 1).val := by
  rw [Layout.TilesN.idx_val]
  show ((Layout.meshBlock [2, 2] ![[], [1]] c) 1).val * 1024 + (i 1).val = _
  rw [mb_cols1]; omega

include hxs in
theorem at_own (hL : ∀ j : Fin 8, (oL c j).view.read (Elt F) Fo = Lv c j (xs c))
    (i : (⟨2, ![8192, 1024]⟩ : Shape).Idx) (h1 : (i 0).val / 4096 = c.val % 2) : Fo i = Xw (tgt c i) := by
  have hr : (i 0).val < 8192 := (i 0).isLt
  have hcol : (i 1).val < 1024 := (i 1).isLt
  have hj : ((i 0).val % 4096) / 512 < 8 := by omega
  have eO := k0_off4_eq c ⟨((i 0).val % 4096) / 512, hj⟩
  have eX := xLoff_eq c ⟨((i 0).val % 4096) / 512, hj⟩
  refine at_of_slice Xw xs hxs c c Fo S512x1024.size _ _ _ _ (hL ⟨((i 0).val % 4096) / 512, hj⟩) i ?_ _ ?_ ?_
  · intro a; rw [eO]; fin_cases a
    · exact rows_own c.val (i 0).val hr h1
    · show 0 ≤ (i 1).val ∧ (i 1).val < 0 + 1024
      omega
  · rw [tgt0, eO, eX]
    exact own_src c.val (i 0).val hr h1
  · rw [tgt1, eO, eX]
    show 1024 * (c.val % 2) + (i 1).val = 1024 * (c.val % 2) + ((i 1).val - 0)
    omega

include hxs in
theorem at_other (s : Dev nD) (hsm : s.val % 2 = c.val % 2)
    (hS : ∀ k : Fin 32, (oP s k).view.read (Elt F) Fo = Gv (ynb s) k (xs (ynb s)))
    (i : (⟨2, ![8192, 1024]⟩ : Shape).Idx) (h1 : ¬ (i 0).val / 4096 = s.val % 2) (h2 : ((i 0).val % 4096) / 2048 = s.val / 2) :
    Fo i = Xw (tgt c i) := by
  have hr : (i 0).val < 8192 := (i 0).isLt
  have hcol : (i 1).val < 1024 := (i 1).isLt
  have hk : ((i 0).val % 2048) / 64 < 32 := by omega
  have eO := k0_off2_eq s ⟨((i 0).val % 2048) / 64, hk⟩
  have eX := k0_off1_eq (ynb s) ⟨((i 0).val % 2048) / 64, hk⟩
  refine at_of_slice Xw xs hxs c (ynb s) Fo S64x1024.size _ _ _ _ (hS ⟨((i 0).val % 2048) / 64, hk⟩) i ?_ _ ?_ ?_
  · intro a; rw [eO]; fin_cases a
    · exact rows_other s.val (i 0).val s.isLt hr h1 h2
    · show 0 ≤ (i 1).val ∧ (i 1).val < 0 + 1024
      omega
  · rw [tgt0, eO, eX]
    exact other_src s.val (ynb s).val (i 0).val s.isLt hr h1 h2 (ynb_div s) (ynb_mod s)
  · rw [tgt1, eO, eX]
    exact other_col c.val s.val (ynb s).val (i 1).val hsm (ynb_mod s)

-- index by index the 72 rectangles read the device's column half of the whole array
include hxs in
theorem result_eq (h : ResultOk (F := F) xs c Fo) :
    Fo = Layout.blockN ⟨2, ![8192, 1024]⟩ ⟨2, ![8192, 2048]⟩ (Layout.meshBlock [2, 2] ![[], [1]] c) Xw := by
  obtain ⟨hP, hQ, hL⟩ := h
  funext i
  rw [Layout.blockN_apply]
  by_cases h1 : (i 0).val / 4096 = c.val % 2
  · exact at_own Xw xs hxs c Fo hL i h1
  · by_cases h2 : ((i 0).val % 4096) / 2048 = c.val / 2
    · exact at_other Xw xs hxs c Fo c rfl hP i h1 h2
    · have key : ∀ xv : ℕ, xv / 2 + c.val / 2 = 1 → ((i 0).val % 4096) / 2048 = xv / 2 := by
        intro xv hxv; have hc : c.val < 4 := c.isLt; have hr : (i 0).val < 8192 := (i 0).isLt; omega
      exact at_other Xw xs hxs c Fo (xnb c) (xnb_val_mod c) hQ i (by rw [xnb_val_mod]; exact h1) (key _ (xnb_val_div c))

end

end Cert.KernelIdeal.A2A

end
-- ==== Proof.RefRun.lean ====
import proofs.«900033_g7700000000000034_dist_a2a_v7x_xy2x2_y_m4096_n1024_f32_1_alg».proof.Defs
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Cert.ReferenceIdeal.Facts]

abbrev ops : List (HloOp τ sig (Elt F)) := []

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := trivial

-- the reference performs no operation
theorem run (m' : (ℓ : Loc nD τ sig) → Buf (Elt F) ℓ) (g' : Dev nD → PrngReg) :
    θ_run (defs (F := F)) (onTc (τ := τ) (main (F := F))) ⟨m', fun _ => 0, g'⟩ fun r =>
      ∀ (d : Dev nD) (b : Ref sig .tc), r.2.mem ((d.tc : Thread nD τ).loc b) = m' ((d.tc : Thread nD τ).loc b) :=
  (θ_run defs _ _).mono (fun _ h d b => (h d b).trans (by after_results))
    (run_seq scopedRefs_eq scopedSems_eq defs main (fun _ => ops) main_eq (fun _ => ops_sub) m' g')

end Cert.ReferenceIdeal.RefRun

end
-- ==== Proof.lean ====
import proofs.«900033_g7700000000000034_dist_a2a_v7x_xy2x2_y_m4096_n1024_f32_1_alg».proof.Defs
import proofs.«900033_g7700000000000034_dist_a2a_v7x_xy2x2_y_m4096_n1024_f32_1_alg».proof.Proof.Gen.Kernel
import proofs.«900033_g7700000000000034_dist_a2a_v7x_xy2x2_y_m4096_n1024_f32_1_alg».proof.Proof.Gen.Kernel.Skeleton
import proofs.«900033_g7700000000000034_dist_a2a_v7x_xy2x2_y_m4096_n1024_f32_1_alg».proof.Proof.Gen.Kernel.Launch
import proofs.«900033_g7700000000000034_dist_a2a_v7x_xy2x2_y_m4096_n1024_f32_1_alg».proof.Proof.Gen.Kernel.Points
import proofs.«900033_g7700000000000034_dist_a2a_v7x_xy2x2_y_m4096_n1024_f32_1_alg».proof.Proof.Gen.Kernel.Frame
import proofs.«900033_g7700000000000034_dist_a2a_v7x_xy2x2_y_m4096_n1024_f32_1_alg».proof.Proof.Gen.KernelIdeal
import proofs.«900033_g7700000000000034_dist_a2a_v7x_xy2x2_y_m4096_n1024_f32_1_alg».proof.Proof.Gen.KernelIdeal.Skeleton
import proofs.«900033_g7700000000000034_dist_a2a_v7x_xy2x2_y_m4096_n1024_f32_1_alg».proof.Proof.Gen.KernelIdeal.Launch
import proofs.«900033_g7700000000000034_dist_a2a_v7x_xy2x2_y_m4096_n1024_f32_1_alg».proof.Proof.Gen.KernelIdeal.Points
import proofs.«900033_g7700000000000034_dist_a2a_v7x_xy2x2_y_m4096_n1024_f32_1_alg».proof.Proof.Gen.KernelIdeal.Frame
import proofs.«900033_g7700000000000034_dist_a2a_v7x_xy2x2_y_m4096_n1024_f32_1_alg».proof.Proof.Gen.ReferenceIdeal
import proofs.«900033_g7700000000000034_dist_a2a_v7x_xy2x2_y_m4096_n1024_f32_1_alg».proof.Proof.Gen.Pre_finite_inputs_Kernel
import proofs.«900033_g7700000000000034_dist_a2a_v7x_xy2x2_y_m4096_n1024_f32_1_alg».proof.Proof.Gen.Pre_finite_inputs_ReferenceIdeal
import proofs.«900033_g7700000000000034_dist_a2a_v7x_xy2x2_y_m4096_n1024_f32_1_alg».proof.Proof.Launch
import proofs.«900033_g7700000000000034_dist_a2a_v7x_xy2x2_y_m4096_n1024_f32_1_alg».proof.Proof.KRun
import proofs.«900033_g7700000000000034_dist_a2a_v7x_xy2x2_y_m4096_n1024_f32_1_alg».proof.Proof.Value
import proofs.«900033_g7700000000000034_dist_a2a_v7x_xy2x2_y_m4096_n1024_f32_1_alg».proof.Proof.RefRun
import Idealize.ShloMosaic.Adequacy
import Idealize.ShloMosaic.Init

noncomputable section

namespace Cert.Proof

open Idealize.ShloMosaic Idealize.SL.Sem

theorem frame_Kernel :
    Cert.frame_Kernel (hKernel := Cert.Kernel.Gen.facts) (hPre_finite_inputs_Kernel := Cert.Pre_finite_inputs_Kernel.Gen.facts) :=
  fun m g _ => (θ_run (Cert.Kernel.defs (F := Bits)) _ _).mono (fun _ h c => (h c).1) (Cert.Kernel.A2A.run_main (F := Bits) m g)

theorem frame_KernelIdeal :
    Cert.frame_KernelIdeal (hKernelIdeal := Cert.KernelIdeal.Gen.facts) (hPre_finite_inputs_Kernel := Cert.Pre_finite_inputs_Kernel.Gen.facts) :=
  fun m g _ => (θ_run (Cert.KernelIdeal.defs (F := Ideal)) _ _).mono (fun _ h c => (h c).1) (Cert.KernelIdeal.A2A.run_main (F := Ideal) m g)

theorem frame_ReferenceIdeal :
    Cert.frame_ReferenceIdeal (hReferenceIdeal := Cert.ReferenceIdeal.Gen.facts) (hPre_finite_inputs_ReferenceIdeal := Cert.Pre_finite_inputs_ReferenceIdeal.Gen.facts) :=
  fun m g _ => (θ_run (Cert.ReferenceIdeal.defs (F := Ideal)) _ _).mono (fun _ h c => h c Cert.ReferenceIdeal.main_arg0)
    (Cert.ReferenceIdeal.RefRun.run (F := Ideal) m g)

theorem algebraic :
    Cert.algebraic_KernelIdeal_ReferenceIdeal (hKernelIdeal := Cert.KernelIdeal.Gen.facts) (hReferenceIdeal := Cert.ReferenceIdeal.Gen.facts)
      (hPre_finite_inputs_Kernel := Cert.Pre_finite_inputs_Kernel.Gen.facts) :=
  fun m g m' g' _ hm =>
    ⟨m' (((0 : Dev Cert.ReferenceIdeal.nD).tc : Thread Cert.ReferenceIdeal.nD Cert.ReferenceIdeal.τ).loc Cert.ReferenceIdeal.main_arg0),
      (θ_run (Cert.KernelIdeal.defs (F := Ideal)) _ _).mono
        (fun _ h c => ⟨Cert.KernelIdeal.A2A.result_eq (F := Ideal) _ _ hm c _ (h c).2, (h c).1⟩)
        (Cert.KernelIdeal.A2A.run_main (F := Ideal) m g),
      (θ_run (Cert.ReferenceIdeal.defs (F := Ideal)) _ _).mono
        (fun _ h => ⟨h 0 Cert.ReferenceIdeal.main_arg0, h 0 Cert.ReferenceIdeal.main_arg0⟩)
        (Cert.ReferenceIdeal.RefRun.run (F := Ideal) m' g')⟩

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_Kernel, frame_KernelIdeal, frame_ReferenceIdeal, trivial, algebraic⟩

end Cert.Proof

end
